-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096 : Shape := ⟨2, ![4096, 4096]⟩
abbrev S4096x128 : Shape := ⟨2, ![4096, 128]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S4096x128 : S_.BroadcastsInDim S4096x128 (![] : Fin 0 → Fin S4096x128.rank)
  reducesTo_S4096x128_S_d0_1 : S4096x128.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg7 : FVec F S128x64 .f32) (main_arg8 : FVec F S64x1 .f32) (main_arg9 : FVec F S1 .f32) (main_v33 : IVec S_ 1) : IVec S_ 1 :=
  let main_v34 : FVec F S128x64 .f32 := Host.absf main_arg7
  let main_cst_12 : FVec F S_ .f32 := constant S_ .f32 0x7F800000#32
  let main_v35 : FVec F S128x64 .f32 := broadcastInDim S128x64 ![] bcast_S_S128x64 main_cst_12
  let main_v36 : IVec S128x64 1 := cmpf .olt main_v34 main_v35
  let main_c_13 : IVec S_ 1 := constantI S_ 1 1#1
  let main_v37 : IVec S_ 1 := (fun x v => Host.reduce IntOp.andi x v reducesTo_S128x64_S_d0_1 h_S_) main_v36 main_c_13
  let main_v38 : IVec S_ 1 := andi main_v33 main_v37
  let main_v39 : FVec F S64x1 .f32 := Host.absf main_arg8
  let main_cst_14 : FVec F S_ .f32 := constant S_ .f32 0x7F800000#32
  let main_v40 : FVec F S64x1 .f32 := broadcastInDim S64x1 ![] bcast_S_S64x1 main_cst_14
  let main_v41 : IVec S64x1 1 := cmpf .olt main_v39 main_v40
  let main_c_15 : IVec S_ 1 := constantI S_ 1 1#1
  let main_v42 : IVec S_ 1 := (fun x v => Host.reduce IntOp.andi x v reducesTo_S64x1_S_d0_1 h_S_) main_v41 main_c_15
  let main_v43 : IVec S_ 1 := andi main_v38 main_v42
  let main_v44 : FVec F S1 .f32 := Host.absf main_arg9
  let main_cst_16 : FVec F S_ .f32 := constant S_ .f32 0x7F800000#32
  let main_v45 : FVec F S1 .f32 := broadcastInDim S1 ![] bcast_S_S1 main_cst_16
  let main_v46 : IVec S1 1 := cmpf .olt main_v44 main_v45
  let main_c_17 : IVec S_ 1 := constantI S_ 1 1#1
  let main_v47 : IVec S_ 1 := (fun x v => Host.reduce IntOp.andi x v reducesTo_S1_S_d0 h_S_) main_v46 main_c_17
  let main_v48 : IVec S_ 1 := andi main_v43 main_v47
  main_v48

def fn_part1 {F : FTy → Type} [FloatOps F] (main_arg4 : FVec F S128x128 .f32) (main_arg5 : FVec F S128x64 .f32) (main_arg6 : FVec F S64 .f32) (main_arg7 : FVec F S128x64 .f32) (main_arg8 : FVec F S64x1 .f32) (main_arg9 : FVec F S1 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x64 .f32 := Host.absf main_arg5
  let main_cst_8 : FVec F S_ .f32 := constant S_ .f32 0x7F800000#32
  let main_v25 : FVec F S128x64 .f32 := broadcastInDim S128x64 ![] bcast_S_S128x64 main_cst_8
  let main_v26 : IVec S128x64 1 := cmpf .olt main_v24 main_v25
  let main_c_9 : IVec S_ 1 := constantI S_ 1 1#1
  let main_v27 : IVec S_ 1 := (fun x v => Host.reduce IntOp.andi x v reducesTo_S128x64_S_d0_1 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg7 main_arg8 main_arg9 main_v33

def fn {F : FTy → Type} [FloatOps F] (main_arg0 : FVec F S4096x4096 .f32) (main_arg1 : FVec F S4096x128 .f32) (main_arg2 : FVec F S128x128 .f32) (main_arg3 : FVec F S128 .f32) (main_arg4 : FVec F S128x128 .f32) (main_arg5 : FVec F S128x64 .f32) (main_arg6 : FVec F S64 .f32) (main_arg7 : FVec F S128x64 .f32) (main_arg8 : FVec F S64x1 .f32) (main_arg9 : FVec F S1 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S4096x128 .f32 := Host.absf main_arg1
  let main_cst_0 : FVec F S_ .f32 := constant S_ .f32 0x7F800000#32
  let main_v5 : FVec F S4096x128 .f32 := broadcastInDim S4096x128 ![] bcast_S_S4096x128 main_cst_0
  let main_v6 : IVec S4096x128 1 := cmpf .olt main_v4 main_v5
  let main_c_1 : IVec S_ 1 := constantI S_ 1 1#1
  let main_v7 : IVec S_ 1 := (fun x v => Host.reduce IntOp.andi x v reducesTo_S4096x128_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_arg8 main_arg9 main_v13 main_v16
-- ==== Kernel.lean ====
abbrev S4096x4096 : Shape := ⟨2, ![4096, 4096]⟩
abbrev S4096x128 : Shape := ⟨2, ![4096, 128]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S1024x1024 : Shape := ⟨2, ![1024, 1024]⟩
abbrev S_ : Shape := ⟨0, ![]⟩
abbrev S4096 : Shape := ⟨1, ![4096]⟩
abbrev S4096x1 : Shape := ⟨2, ![4096, 1]⟩
abbrev S1x128 : Shape := ⟨2, ![1, 128]⟩
abbrev S1024x128 : Shape := ⟨2, ![1024, 128]⟩
abbrev S1024x1 : Shape := ⟨2, ![1024, 1]⟩
abbrev S1x64 : Shape := ⟨2, ![1, 64]⟩
abbrev S4096x64 : Shape := ⟨2, ![4096, 64]⟩
abbrev S1024x64 : Shape := ⟨2, ![1024, 64]⟩
abbrev S1x1 : Shape := ⟨2, ![1, 1]⟩
abbrev S1x4096 : Shape := ⟨2, ![1, 4096]⟩

abbrev nBuf : Space → Nat
  | .hbm => 68
  | .vmem => 42
  | .smem => 0
  | _ => 0

abbrev bufTy : (tb : Table) → Fin (tcTables nBuf tb) → BufTy
  | .hbm, ⟨0, _⟩ => ⟨S4096x4096, .f32⟩
  | .hbm, ⟨1, _⟩ => ⟨S4096x128, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x64, .f32⟩
  | .hbm, ⟨6, _⟩ => ⟨S64, .f32⟩
  | .hbm, ⟨7, _⟩ => ⟨S128x64, .f32⟩
  | .hbm, ⟨8, _⟩ => ⟨S64x1, .f32⟩
  | .hbm, ⟨9, _⟩ => ⟨S1, .f32⟩
  | .hbm, ⟨10, _⟩ => ⟨S4096x4096, .bf16⟩
  | .hbm, ⟨11, _⟩ => ⟨S4096x4096, .f32⟩
  | .hbm, ⟨12, _⟩ => ⟨S_, .f32⟩
  | .hbm, ⟨13, _⟩ => ⟨S4096, .f32⟩
  | .hbm, ⟨14, _⟩ => ⟨S_, .f32⟩
  | .hbm, ⟨15, _⟩ => ⟨S4096, .f32⟩
  | .hbm, ⟨16, _⟩ => ⟨S4096, .f32⟩
  | .hbm, ⟨17, _⟩ => ⟨S_, .f32⟩
  | .hbm, ⟨18, _⟩ => ⟨S4096, .f32⟩
  | .hbm, ⟨19, _⟩ => ⟨S4096, .f32⟩
  | .hbm, ⟨20, _⟩ => ⟨S4096x1, .f32⟩
  | .hbm, ⟨21, _⟩ => ⟨S1x128, .f32⟩
  | .hbm, ⟨22, _⟩ => ⟨S4096x128, .f32⟩
  | .hbm, ⟨23, _⟩ => ⟨S1x64, .f32⟩
  | .hbm, ⟨24, _⟩ => ⟨S4096x64, .f32⟩
  | .hbm, ⟨25, _⟩ => ⟨S4096x1, .f32⟩
  | .hbm, ⟨26, _⟩ => ⟨S1x1, .f32⟩
  | .hbm, ⟨27, _⟩ => ⟨S4096x1, .f32⟩
  | .hbm, ⟨28, _⟩ => ⟨S4096x1, .f32⟩
  | .hbm, ⟨29, _⟩ => ⟨S4096x1, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .i1⟩
  | .hbm, ⟨38, _⟩ => ⟨S_, .f32⟩
  | .hbm, ⟨39, _⟩ => ⟨S4096x1, .f32⟩
  | .hbm, ⟨40, _⟩ => ⟨S4096x1, .f32⟩
  | .hbm, ⟨41, _⟩ => ⟨S4096x1, .f32⟩
  | .hbm, ⟨42, _⟩ => ⟨S_, .f32⟩
  | .hbm, ⟨43, _⟩ => ⟨S4096x1, .f32⟩
  | .hbm, ⟨44, _⟩ => ⟨S4096x1, .f32⟩
  | .hbm, ⟨45, _⟩ => ⟨S4096x1, .f32⟩
  | .hbm, ⟨46, _⟩ => ⟨S4096, .f32⟩
  | .hbm, ⟨47, _⟩ => ⟨S1x4096, .f32⟩
  | .hbm, ⟨48, _⟩ => ⟨S4096x4096, .f32⟩
  | .hbm, ⟨49, _⟩ => ⟨S4096x4096, .f32⟩
  | .hbm, ⟨50, _⟩ => ⟨S4096x4096, .bf16⟩
  | .hbm, ⟨51, _⟩ => ⟨S_, .f32⟩
  | .hbm, ⟨52, _⟩ => ⟨S4096, .f32⟩
  | .hbm, ⟨53, _⟩ => ⟨S4096x4096, .f32⟩
  | .hbm, ⟨54, _⟩ => ⟨S4096x1, .f32⟩
  | .hbm, ⟨55, _⟩ => ⟨S1x4096, .f32⟩
  | .hbm, ⟨56, _⟩ => ⟨S4096x4096, .f32⟩
  | .hbm, ⟨57, _⟩ => ⟨S4096x4096, .f32⟩
  | .hbm, ⟨58, _⟩ => ⟨S4096x4096, .f32⟩
  | .hbm, ⟨59, _⟩ => ⟨S4096x4096, .f32⟩
  | .hbm, ⟨60, _⟩ => ⟨S_, .f32⟩
  | .hbm, ⟨61, _⟩ => ⟨S4096x4096, .f32⟩
  | .hbm, ⟨62, _⟩ => ⟨S4096x4096, .i1⟩
  | .hbm, ⟨63, _⟩ => ⟨S_, .f32⟩
  | .hbm, ⟨64, _⟩ => ⟨S_, .f32⟩
  | .hbm, ⟨65, _⟩ => ⟨S4096x4096, .f32⟩
  | .hbm, ⟨66, _⟩ => ⟨S4096x4096, .f32⟩
  | .hbm, ⟨67, _⟩ => ⟨S4096x4096, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | .local _ .vmem, ⟨9, _⟩ => ⟨S1024x128, .f32⟩
  | .local _ .vmem, ⟨10, _⟩ => ⟨S1024x128, .f32⟩
  | .local _ .vmem, ⟨11, _⟩ => ⟨S1024x128, .f32⟩
  | .local _ .vmem, ⟨12, _⟩ => ⟨S1024x128, .f32⟩
  | .local _ .vmem, ⟨13, _⟩ => ⟨S1024x1, .f32⟩
  | .local _ .vmem, ⟨14, _⟩ => ⟨S1024x1, .f32⟩
  | .local _ .vmem, ⟨15, _⟩ => ⟨S128x128, .f32⟩
  | .local _ .vmem, ⟨16, _⟩ => ⟨S1x128, .f32⟩
  | .local _ .vmem, ⟨17, _⟩ => ⟨S128x128, .f32⟩
  | .local _ .vmem, ⟨18, _⟩ => ⟨S1024x128, .f32⟩
  | .local _ .vmem, ⟨19, _⟩ => ⟨S1024x128, .f32⟩
  | .local _ .vmem, ⟨20, _⟩ => ⟨S1024x128, .f32⟩
  | .local _ .vmem, ⟨21, _⟩ => ⟨S1024x1024, .f32⟩
  | .local _ .vmem, ⟨22, _⟩ => ⟨S1024x1024, .f32⟩
  | .local _ .vmem, ⟨23, _⟩ => ⟨S1024x128, .f32⟩
  | .local _ .vmem, ⟨24, _⟩ => ⟨S1024x128, .f32⟩
  | .local _ .vmem, ⟨25, _⟩ => ⟨S1024x128, .f32⟩
  | .local _ .vmem, ⟨26, _⟩ => ⟨S1024x128, .f32⟩
  | .local _ .vmem, ⟨27, _⟩ => ⟨S1024x1, .f32⟩
  | .local _ .vmem, ⟨28, _⟩ => ⟨S1024x1, .f32⟩
  | .local _ .vmem, ⟨29, _⟩ => ⟨S128x64, .f32⟩
  | .local _ .vmem, ⟨30, _⟩ => ⟨S1x64, .f32⟩
  | .local _ .vmem, ⟨31, _⟩ => ⟨S128x64, .f32⟩
  | .local _ .vmem, ⟨32, _⟩ => ⟨S1024x64, .f32⟩
  | .local _ .vmem, ⟨33, _⟩ => ⟨S1024x64, .f32⟩
  | .local _ .vmem, ⟨34, _⟩ => ⟨S1024x128, .f32⟩
  | .local _ .vmem, ⟨35, _⟩ => ⟨S1024x1024, .bf16⟩
  | .local _ .vmem, ⟨36, _⟩ => ⟨S1024x1024, .bf16⟩
  | .local _ .vmem, ⟨37, _⟩ => ⟨S1024x1024, .bf16⟩
  | .local _ .vmem, ⟨38, _⟩ => ⟨S1024x1024, .bf16⟩
  | .local _ .vmem, ⟨39, _⟩ => ⟨S1024x1024, .f32⟩
  | .local _ .vmem, ⟨40, _⟩ => ⟨S1024x1024, .f32⟩
  | .local _ .vmem, ⟨41, _⟩ => ⟨S1024x1024, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_cst : Ref sig .tc := ⟨.hbm, 12, rfl⟩
abbrev main_v2 : Ref sig .tc := ⟨.hbm, 13, rfl⟩
abbrev main_cst_0 : Ref sig .tc := ⟨.hbm, 14, rfl⟩
abbrev main_v3 : Ref sig .tc := ⟨.hbm, 15, rfl⟩
abbrev main_v4 : Ref sig .tc := ⟨.hbm, 16, rfl⟩
abbrev main_cst_1 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_2 : Ref sig .tc := ⟨.hbm, 30, rfl⟩
abbrev main_v17 : Ref sig .tc := ⟨.hbm, 31, rfl⟩
abbrev main_cst_3 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_cst_4 : Ref sig .tc := ⟨.hbm, 36, rfl⟩
abbrev main_v21 : Ref sig .tc := ⟨.hbm, 37, rfl⟩
abbrev main_cst_5 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_6 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_7 : Ref sig .tc := ⟨.hbm, 60, rfl⟩
abbrev main_v42 : Ref sig .tc := ⟨.hbm, 61, rfl⟩
abbrev main_v43 : Ref sig .tc := ⟨.hbm, 62, rfl⟩
abbrev main_cst_8 : Ref sig .tc := ⟨.hbm, 63, rfl⟩
abbrev main_call1_v0 : Ref sig .tc := ⟨.hbm, 64, rfl⟩
abbrev main_call1_v1 : Ref sig .tc := ⟨.hbm, 65, rfl⟩
abbrev main_v44 : Ref sig .tc := ⟨.hbm, 66, rfl⟩
abbrev main_v45 : Ref sig .tc := ⟨.hbm, 67, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg3_1 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg7_0 : Ref sig .tc := ⟨.vmem, 18, rfl⟩
abbrev cc1_stg7_1 : Ref sig .tc := ⟨.vmem, 19, rfl⟩
abbrev cc1_scratch0 : Ref sig .tc := ⟨.vmem, 20, rfl⟩
abbrev cc2_stg0_0 : Ref sig .tc := ⟨.vmem, 21, rfl⟩
abbrev cc2_stg0_1 : Ref sig .tc := ⟨.vmem, 22, rfl⟩
abbrev cc2_stg1_0 : Ref sig .tc := ⟨.vmem, 23, rfl⟩
abbrev cc2_stg1_1 : Ref sig .tc := ⟨.vmem, 24, rfl⟩
abbrev cc2_stg2_0 : Ref sig .tc := ⟨.vmem, 25, rfl⟩
abbrev cc2_stg2_1 : Ref sig .tc := ⟨.vmem, 26, rfl⟩
abbrev cc2_stg3_0 : Ref sig .tc := ⟨.vmem, 27, rfl⟩
abbrev cc2_stg3_1 : Ref sig .tc := ⟨.vmem, 28, rfl⟩
abbrev cc2_stg4_0 : Ref sig .tc := ⟨.vmem, 29, rfl⟩
abbrev cc2_stg5_0 : Ref sig .tc := ⟨.vmem, 30, rfl⟩
abbrev cc2_stg6_0 : Ref sig .tc := ⟨.vmem, 31, rfl⟩
abbrev cc2_stg7_0 : Ref sig .tc := ⟨.vmem, 32, rfl⟩
abbrev cc2_stg7_1 : Ref sig .tc := ⟨.vmem, 33, rfl⟩
abbrev cc2_scratch0 : Ref sig .tc := ⟨.vmem, 34, rfl⟩
abbrev cc3_stg0_0 : Ref sig .tc := ⟨.vmem, 35, rfl⟩
abbrev cc3_stg0_1 : Ref sig .tc := ⟨.vmem, 36, rfl⟩
abbrev cc3_stg1_0 : Ref sig .tc := ⟨.vmem, 37, rfl⟩
abbrev cc3_stg1_1 : Ref sig .tc := ⟨.vmem, 38, rfl⟩
abbrev cc3_stg2_0 : Ref sig .tc := ⟨.vmem, 39, rfl⟩
abbrev cc3_stg2_1 : Ref sig .tc := ⟨.vmem, 40, rfl⟩
abbrev cc3_scratch0 : Ref sig .tc := ⟨.vmem, 41, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem5_0 : DmaSem sig := 15
abbrev cc1_sem6_0 : DmaSem sig := 16
abbrev cc1_sem7_0 : DmaSem sig := 17
abbrev cc1_sem7_1 : DmaSem sig := 18
abbrev cc2_sem0_0 : DmaSem sig := 19
abbrev cc2_sem0_1 : DmaSem sig := 20
abbrev cc2_sem1_0 : DmaSem sig := 21
abbrev cc2_sem1_1 : DmaSem sig := 22
abbrev cc2_sem2_0 : DmaSem sig := 23
abbrev cc2_sem2_1 : DmaSem sig := 24
abbrev cc2_sem3_0 : DmaSem sig := 25
abbrev cc2_sem3_1 : DmaSem sig := 26
abbrev cc2_sem4_0 : DmaSem sig := 27
abbrev cc2_sem5_0 : DmaSem sig := 28
abbrev cc2_sem6_0 : DmaSem sig := 29
abbrev cc2_sem7_0 : DmaSem sig := 30
abbrev cc2_sem7_1 : DmaSem sig := 31
abbrev cc3_sem0_0 : DmaSem sig := 32
abbrev cc3_sem0_1 : DmaSem sig := 33
abbrev cc3_sem1_0 : DmaSem sig := 34
abbrev cc3_sem1_1 : DmaSem sig := 35
abbrev cc3_sem2_0 : DmaSem sig := 36
abbrev cc3_sem2_1 : DmaSem sig := 37

abbrev nD : Nat := 1
abbrev τ : Topo := Topo.v7x

variable {F : FTy → Type} [FloatOps F]

abbrev grid0 : Pipeline.Grid := ⟨3, ![4, 4, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev grid1 : Pipeline.Grid := ⟨2, ![4, 4], ![false, false]⟩

def k1_cond2 (i : grid1.Coords) : BitVec 1 :=
  let arg1 : BitVec 32 := BitVec.ofNat 32 (i 1).val
  let c3_i32 : BitVec 32 := 3#32
  let v14 : BitVec 1 := Scalar.cmpi .eq arg1 c3_i32
  let v15 : BitVec 32 := Scalar.extui v14
  let c0_i32_8 : BitVec 32 := 0#32
  let v16 : BitVec 1 := Scalar.cmpi .ne v15 c0_i32_8
  v16

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1024x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1024x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 1 → Memref sig .tc .vmem S128x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev stage1_7 : Fin 2 → Memref sig .tc .vmem S1024x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, false]

abbrev grid2 : Pipeline.Grid := ⟨2, ![4, 4], ![false, false]⟩

def k2_cond2 (i : grid2.Coords) : BitVec 1 :=
  let arg1 : BitVec 32 := BitVec.ofNat 32 (i 1).val
  let c3_i32 : BitVec 32 := 3#32
  let v15 : BitVec 1 := Scalar.cmpi .eq arg1 c3_i32
  let v16 : BitVec 32 := Scalar.extui v15
  let c0_i32_8 : BitVec 32 := 0#32
  let v17 : BitVec 1 := Scalar.cmpi .ne v16 c0_i32_8
  v17

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S1024x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S1024x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1024x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev stage2_3 : Fin 2 → Memref sig .tc .vmem S1024x1 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

abbrev stage2_4 : Fin 1 → Memref sig .tc .vmem S128x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false, false]

abbrev stage2_5 : Fin 1 → Memref sig .tc .vmem S1x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false, false]

abbrev stage2_6 : Fin 1 → Memref sig .tc .vmem S128x64 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false, false]

abbrev stage2_7 : Fin 2 → Memref sig .tc .vmem S1024x64 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true, false]

abbrev grid3 : Pipeline.Grid := ⟨3, ![4, 4, 4], ![false, false, false]⟩

def k3_cond2 (i : grid3.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc3_transform_0 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc3_transform_1 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc3_transform_2 (i : grid3.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage3_0 : Fin 2 → Memref sig .tc .vmem S1024x1024 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false, true]

abbrev stage3_1 : Fin 2 → Memref sig .tc .vmem S1024x1024 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true, true]

abbrev stage3_2 : Fin 2 → Memref sig .tc .vmem S1024x1024 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true, false]

class Facts₀ : Prop where
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  natLt_1_32 : 1 < 32
  reducesTo_S4096x4096_S4096_d1 : S4096x4096.ReducesTo [1] S4096
  h_S_ : 0 < S_.numel
  bcast_S_S4096 : S_.BroadcastsInDim S4096 (![] : Fin 0 → Fin S4096.rank)
  shapeCasts_S4096_S4096x1 : S4096.ShapeCasts S4096x1
  shapeCasts_S128_S1x128 : S128.ShapeCasts S1x128
  inb_S1024x128_S1024x128_0_0 : ∀ a, (![0, 0] : Fin 2 → Nat) a + S1024x128.size a ≤ S1024x128.size a
  h_S1024x128 : 0 < S1024x128.numel
  shapeCasts_S1024x128_S1024x128 : S1024x128.ShapeCasts S1024x128
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  broadcasts_S1024x1_S1024x128 : S1024x1.Broadcasts S1024x128
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1024x128 : S1x128.Broadcasts S1024x128
  shapeCasts_S64_S1x64 : S64.ShapeCasts S1x64
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S1024x64 : S1x64.Broadcasts S1024x64
  inb_S1024x64_S1024x64_0_0 : ∀ a, (![0, 0] : Fin 2 → Nat) a + S1024x64.size a ≤ S1024x64.size a
  h_S1024x64 : 0 < S1024x64.numel
  bcast_S1_S1x1_1 : S1.BroadcastsInDim S1x1 (![1] : Fin 1 → Fin S1x1.rank)
  bcast_S1x1_S4096x1_0_1 : S1x1.BroadcastsInDim S4096x1 (![0, 1] : Fin 2 → Fin S4096x1.rank)
  reducesTo_S4096x1_S_d0_1 : S4096x1.ReducesTo [0, 1] S_
  bcast_S_S4096x1 : S_.BroadcastsInDim S4096x1 (![] : Fin 0 → Fin S4096x1.rank)
  shapeCasts_S4096x1_S4096 : S4096x1.ShapeCasts S4096
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)
  bcast_S4096_S4096x1_0 : S4096.BroadcastsInDim S4096x1 (![0] : Fin 1 → Fin S4096x1.rank)
  bcast_S4096x1_S4096x4096_0_1 : S4096x1.BroadcastsInDim S4096x4096 (![0, 1] : Fin 2 → Fin S4096x4096.rank)
  bcast_S_S4096x4096 : S_.BroadcastsInDim S4096x4096 (![] : Fin 0 → Fin S4096x4096.rank)
  dot_S1024x1024_S1024x1024_S1024x1024_0_0_1_1_n_n_wf : DotDims.WF S1024x1024 S1024x1024 S1024x1024 [0] [0] [1] [1] [] []
  dot_S1024x1024_S1024x128_S1024x128_1_0_0_1_n_n_wf : DotDims.WF S1024x1024 S1024x128 S1024x128 [1] [0] [0] [1] [] []
  dot_S1024x128_S128x128_S1024x128_1_0_0_1_n_n_wf : DotDims.WF S1024x128 S128x128 S1024x128 [1] [0] [0] [1] [] []
  dot_S1024x128_S128x64_S1024x64_1_0_0_1_n_n_wf : DotDims.WF S1024x128 S128x64 S1024x64 [1] [0] [0] [1] [] []
  dot_S4096x64_S64x1_S4096x1_1_0_0_1_n_n_wf : DotDims.WF S4096x64 S64x1 S4096x1 [1] [0] [0] [1] [] []
  dot_S1024x1024_S1024x1024_S1024x1024_1_1_0_0_n_n_wf : DotDims.WF S1024x1024 S1024x1024 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S4096x4096.size a
  hwx0_0 : ∀ i : grid0.Coords, EltTy.bits .bf16 = 32 ∨ (Rect.block (s := S4096x4096) S1024x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x4096.size a
  hwx0_1 : ∀ i : grid0.Coords, EltTy.bits .bf16 = 32 ∨ (Rect.block (s := S4096x4096) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S4096x4096.size a
  hwx0_2 : ∀ i : grid0.Coords, EltTy.bits .f32 = 32 ∨ (Rect.block (s := S4096x4096) S1024x1024.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x1024.size a ≤ S4096x4096.size a
  hwx1_0 : ∀ i : grid1.Coords, EltTy.bits .f32 = 32 ∨ (Rect.block (s := S4096x4096) S1024x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x128.size a ≤ S4096x128.size a
  hwx1_1 : ∀ i : grid1.Coords, EltTy.bits .f32 = 32 ∨ (Rect.block (s := S4096x128) S1024x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x128.size a ≤ S4096x128.size a
  hwx1_2 : ∀ i : grid1.Coords, EltTy.bits .f32 = 32 ∨ (Rect.block (s := S4096x128) S1024x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x1.size a ≤ S4096x1.size a
  hwx1_3 : ∀ i : grid1.Coords, EltTy.bits .f32 = 32 ∨ (Rect.block (s := S4096x1) S1024x1.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128x128.size a ≤ S128x128.size a
  hwx1_6 : ∀ i : grid1.Coords, EltTy.bits .f32 = 32 ∨ (Rect.block (s := S128x128) S128x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S1024x128.size a ≤ S4096x128.size a
  hwx1_7 : ∀ i : grid1.Coords, EltTy.bits .f32 = 32 ∨ (Rect.block (s := S4096x128) S1024x128.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x1024.size a ≤ S4096x4096.size a
  hwx2_0 : ∀ i : grid2.Coords, EltTy.bits .f32 = 32 ∨ (Rect.block (s := S4096x4096) S1024x1024.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1024x128.size a ≤ S4096x128.size a
  hwx2_1 : ∀ i : grid2.Coords, EltTy.bits .f32 = 32 ∨ (Rect.block (s := S4096x128) S1024x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1024x128.size a ≤ S4096x128.size a
  hwx2_2 : ∀ i : grid2.Coords, EltTy.bits .f32 = 32 ∨ (Rect.block (s := S4096x128) S1024x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1024x1.size a ≤ S4096x1.size a
  hwx2_3 : ∀ i : grid2.Coords, EltTy.bits .f32 = 32 ∨ (Rect.block (s := S4096x1) S1024x1.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x64.size a ≤ S128x64.size a
  hwx2_4 : ∀ i : grid2.Coords, EltTy.bits .f32 = 32 ∨ (Rect.block (s := S128x64) S128x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x64.size a ≤ S1x64.size a
  hwx2_5 : ∀ i : grid2.Coords, EltTy.bits .f32 = 32 ∨ (Rect.block (s := S1x64) S1x64.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S128x64.size a ≤ S128x64.size a
  hwx2_6 : ∀ i : grid2.Coords, EltTy.bits .f32 = 32 ∨ (Rect.block (s := S128x64) S128x64.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S1024x64.size a ≤ S4096x64.size a
  hwx2_7 : ∀ i : grid2.Coords, EltTy.bits .f32 = 32 ∨ (Rect.block (s := S4096x64) S1024x64.size (cc2_transform_7 i) (hinb2_7 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S1024x1024.size a ≤ S4096x4096.size a
  hwx3_0 : ∀ i : grid3.Coords, EltTy.bits .bf16 = 32 ∨ (Rect.block (s := S4096x4096) S1024x1024.size (cc3_transform_0 i) (hinb3_0 i)).WholeWords (EltTy.packing .bf16)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S1024x1024.size a ≤ S4096x4096.size a
  hwx3_1 : ∀ i : grid3.Coords, EltTy.bits .bf16 = 32 ∨ (Rect.block (s := S4096x4096) S1024x1024.size (cc3_transform_1 i) (hinb3_1 i)).WholeWords (EltTy.packing .bf16)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S1024x1024.size a ≤ S4096x4096.size a
  hwx3_2 : ∀ i : grid3.Coords, EltTy.bits .f32 = 32 ∨ (Rect.block (s := S4096x4096) S1024x1024.size (cc3_transform_2 i) (hinb3_2 i)).WholeWords (EltTy.packing .f32)

variable [Facts₀]

def dot_S1024x1024_S1024x1024_S1024x1024_0_0_1_1_n_n : DotDims S1024x1024 S1024x1024 S1024x1024 where
  lhsContracting := [0]
  rhsContracting := [0]
  lhsNonContracting := [1]
  rhsNonContracting := [1]
  lhsBatch := []
  rhsBatch := []
  wf := dot_S1024x1024_S1024x1024_S1024x1024_0_0_1_1_n_n_wf
def dot_S1024x1024_S1024x128_S1024x128_1_0_0_1_n_n : DotDims S1024x1024 S1024x128 S1024x128 where
  lhsContracting := [1]
  rhsContracting := [0]
  lhsNonContracting := [0]
  rhsNonContracting := [1]
  lhsBatch := []
  rhsBatch := []
  wf := dot_S1024x1024_S1024x128_S1024x128_1_0_0_1_n_n_wf
def dot_S1024x128_S128x128_S1024x128_1_0_0_1_n_n : DotDims S1024x128 S128x128 S1024x128 where
  lhsContracting := [1]
  rhsContracting := [0]
  lhsNonContracting := [0]
  rhsNonContracting := [1]
  lhsBatch := []
  rhsBatch := []
  wf := dot_S1024x128_S128x128_S1024x128_1_0_0_1_n_n_wf
def dot_S1024x128_S128x64_S1024x64_1_0_0_1_n_n : DotDims S1024x128 S128x64 S1024x64 where
  lhsContracting := [1]
  rhsContracting := [0]
  lhsNonContracting := [0]
  rhsNonContracting := [1]
  lhsBatch := []
  rhsBatch := []
  wf := dot_S1024x128_S128x64_S1024x64_1_0_0_1_n_n_wf
def dot_S4096x64_S64x1_S4096x1_1_0_0_1_n_n : DotDims S4096x64 S64x1 S4096x1 where
  lhsContracting := [1]
  rhsContracting := [0]
  lhsNonContracting := [0]
  rhsNonContracting := [1]
  lhsBatch := []
  rhsBatch := []
  wf := dot_S4096x64_S64x1_S4096x1_1_0_0_1_n_n_wf
def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf

abbrev win0_0 : Pipeline.Window sig grid0 :=
  Pipeline.Window.ofSpec (Memref.whole main_v0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1024x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_v1) S1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S1024x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg1) S1024x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v7) S1024x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_arg2) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v8) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg4) S128x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v9) S1024x128.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev idle1 : Fin 8 → grid1.Coords → Bool := fun | 0 => fun _ => false | 1 => fun _ => false | 2 => fun _ => false | 3 => fun _ => false | 4 => fun _ => false | 5 => fun _ => false | 6 => fun _ => false | 7 => fun i => !(k1_cond2 i == 1#1) | ⟨_ + 8, h⟩ => absurd h (Nat.not_lt.2 (Nat.le_add_left _ _))

abbrev win2_0 : Pipeline.Window sig grid2 :=
  Pipeline.Window.ofSpec (Memref.whole main_v1) S1024x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v9) S1024x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v9) S1024x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v7) S1024x1.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_arg5) S128x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v10) S1x64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_arg7) S128x64.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v11) S1024x64.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev idle2 : Fin 8 → grid2.Coords → Bool := fun | 0 => fun _ => false | 1 => fun _ => false | 2 => fun _ => false | 3 => fun _ => false | 4 => fun _ => false | 5 => fun _ => false | 6 => fun _ => false | 7 => fun i => !(k2_cond2 i == 1#1) | ⟨_ + 8, h⟩ => absurd h (Nat.not_lt.2 (Nat.le_add_left _ _))

abbrev win3_0 : Pipeline.Window sig grid3 :=
  Pipeline.Window.ofSpec (Memref.whole main_v33) S1024x1024.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v0) S1024x1024.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v35) S1024x1024.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev idle3 : Fin 3 → grid3.Coords → Bool := fun | 0 => fun _ => false | 1 => fun _ => false | 2 => fun i => !(k3_cond2 i == 1#1) | ⟨_ + 3, h⟩ => absurd h (Nat.not_lt.2 (Nat.le_add_left _ _))

class Facts : Prop extends Facts₀ where

variable [Facts]
-- ==== ReferenceIdeal.lean ====
abbrev S4096x4096 : Shape := ⟨2, ![4096, 4096]⟩
abbrev S4096x128 : Shape := ⟨2, ![4096, 128]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S_ : Shape := ⟨0, ![]⟩
abbrev S4096 : Shape := ⟨1, ![4096]⟩
abbrev S4096x1 : Shape := ⟨2, ![4096, 1]⟩
abbrev S1x128 : Shape := ⟨2, ![1, 128]⟩
abbrev S4096x64 : Shape := ⟨2, ![4096, 64]⟩
abbrev S1x64 : Shape := ⟨2, ![1, 64]⟩
abbrev S1x1 : Shape := ⟨2, ![1, 1]⟩
abbrev S1x4096 : Shape := ⟨2, ![1, 4096]⟩

abbrev nBuf : Space → Nat
  | .hbm => 91
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x128, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x64, .f32⟩
  | .hbm, ⟨6, _⟩ => ⟨S64, .f32⟩
  | .hbm, ⟨7, _⟩ => ⟨S128x64, .f32⟩
  | .hbm, ⟨8, _⟩ => ⟨S64x1, .f32⟩
  | .hbm, ⟨9, _⟩ => ⟨S1, .f32⟩
  | .hbm, ⟨10, _⟩ => ⟨S4096x4096, .f32⟩
  | .hbm, ⟨11, _⟩ => ⟨S4096x4096, .f32⟩
  | .hbm, ⟨12, _⟩ => ⟨S_, .f32⟩
  | .hbm, ⟨13, _⟩ => ⟨S4096x4096, .f32⟩
  | .hbm, ⟨14, _⟩ => ⟨S4096x4096, .i1⟩
  | .hbm, ⟨15, _⟩ => ⟨S4096x4096, .f32⟩
  | .hbm, ⟨16, _⟩ => ⟨S4096x4096, .f32⟩
  | .hbm, ⟨17, _⟩ => ⟨S_, .f32⟩
  | .hbm, ⟨18, _⟩ => ⟨S4096, .f32⟩
  | .hbm, ⟨19, _⟩ => ⟨S_, .f32⟩
  | .hbm, ⟨20, _⟩ => ⟨S4096, .f32⟩
  | .hbm, ⟨21, _⟩ => ⟨S4096, .f32⟩
  | .hbm, ⟨22, _⟩ => ⟨S_, .f32⟩
  | .hbm, ⟨23, _⟩ => ⟨S4096, .f32⟩
  | .hbm, ⟨24, _⟩ => ⟨S4096, .f32⟩
  | .hbm, ⟨25, _⟩ => ⟨S4096x128, .f32⟩
  | .hbm, ⟨26, _⟩ => ⟨S4096x1, .f32⟩
  | .hbm, ⟨27, _⟩ => ⟨S4096x128, .f32⟩
  | .hbm, ⟨28, _⟩ => ⟨S4096x128, .f32⟩
  | .hbm, ⟨29, _⟩ => ⟨S4096x128, .f32⟩
  | .hbm, ⟨30, _⟩ => ⟨S1x128, .f32⟩
  | .hbm, ⟨31, _⟩ => ⟨S4096x128, .f32⟩
  | .hbm, ⟨32, _⟩ => ⟨S4096x128, .f32⟩
  | .hbm, ⟨33, _⟩ => ⟨S4096x128, .f32⟩
  | .hbm, ⟨34, _⟩ => ⟨S4096x128, .f32⟩
  | .hbm, ⟨35, _⟩ => ⟨S_, .f32⟩
  | .hbm, ⟨36, _⟩ => ⟨S4096x128, .f32⟩
  | .hbm, ⟨37, _⟩ => ⟨S4096x128, .f32⟩
  | .hbm, ⟨38, _⟩ => ⟨S4096x128, .f32⟩
  | .hbm, ⟨39, _⟩ => ⟨S4096x1, .f32⟩
  | .hbm, ⟨40, _⟩ => ⟨S4096x128, .f32⟩
  | .hbm, ⟨41, _⟩ => ⟨S4096x128, .f32⟩
  | .hbm, ⟨42, _⟩ => ⟨S4096x64, .f32⟩
  | .hbm, ⟨43, _⟩ => ⟨S1x64, .f32⟩
  | .hbm, ⟨44, _⟩ => ⟨S4096x64, .f32⟩
  | .hbm, ⟨45, _⟩ => ⟨S4096x64, .f32⟩
  | .hbm, ⟨46, _⟩ => ⟨S4096x64, .f32⟩
  | .hbm, ⟨47, _⟩ => ⟨S4096x64, .f32⟩
  | .hbm, ⟨48, _⟩ => ⟨S4096x1, .f32⟩
  | .hbm, ⟨49, _⟩ => ⟨S1x1, .f32⟩
  | .hbm, ⟨50, _⟩ => ⟨S4096x1, .f32⟩
  | .hbm, ⟨51, _⟩ => ⟨S4096x1, .f32⟩
  | .hbm, ⟨52, _⟩ => ⟨S4096x1, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .i1⟩
  | .hbm, ⟨61, _⟩ => ⟨S_, .f32⟩
  | .hbm, ⟨62, _⟩ => ⟨S4096x1, .f32⟩
  | .hbm, ⟨63, _⟩ => ⟨S4096x1, .f32⟩
  | .hbm, ⟨64, _⟩ => ⟨S4096x1, .f32⟩
  | .hbm, ⟨65, _⟩ => ⟨S_, .f32⟩
  | .hbm, ⟨66, _⟩ => ⟨S4096x1, .f32⟩
  | .hbm, ⟨67, _⟩ => ⟨S4096x1, .f32⟩
  | .hbm, ⟨68, _⟩ => ⟨S4096x1, .f32⟩
  | .hbm, ⟨69, _⟩ => ⟨S4096, .f32⟩
  | .hbm, ⟨70, _⟩ => ⟨S1x4096, .f32⟩
  | .hbm, ⟨71, _⟩ => ⟨S4096x4096, .f32⟩
  | .hbm, ⟨72, _⟩ => ⟨S4096x4096, .f32⟩
  | .hbm, ⟨73, _⟩ => ⟨S_, .f32⟩
  | .hbm, ⟨74, _⟩ => ⟨S4096, .f32⟩
  | .hbm, ⟨75, _⟩ => ⟨S4096x4096, .f32⟩
  | .hbm, ⟨76, _⟩ => ⟨S4096x4096, .f32⟩
  | .hbm, ⟨77, _⟩ => ⟨S4096x1, .f32⟩
  | .hbm, ⟨78, _⟩ => ⟨S1x4096, .f32⟩
  | .hbm, ⟨79, _⟩ => ⟨S4096x4096, .f32⟩
  | .hbm, ⟨80, _⟩ => ⟨S4096x4096, .f32⟩
  | .hbm, ⟨81, _⟩ => ⟨S4096x4096, .f32⟩
  | .hbm, ⟨82, _⟩ => ⟨S4096x4096, .f32⟩
  | .hbm, ⟨83, _⟩ => ⟨S_, .f32⟩
  | .hbm, ⟨84, _⟩ => ⟨S4096x4096, .f32⟩
  | .hbm, ⟨85, _⟩ => ⟨S4096x4096, .i1⟩
  | .hbm, ⟨86, _⟩ => ⟨S_, .f32⟩
  | .hbm, ⟨87, _⟩ => ⟨S_, .f32⟩
  | .hbm, ⟨88, _⟩ => ⟨S4096x4096, .f32⟩
  | .hbm, ⟨89, _⟩ => ⟨S4096x4096, .f32⟩
  | .hbm, ⟨90, _⟩ => ⟨S4096x4096, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_cst : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_cst_0 : Ref sig .tc := ⟨.hbm, 17, rfl⟩
abbrev main_v6 : Ref sig .tc := ⟨.hbm, 18, rfl⟩
abbrev main_cst_1 : Ref sig .tc := ⟨.hbm, 19, rfl⟩
abbrev main_v7 : Ref sig .tc := ⟨.hbm, 20, rfl⟩
abbrev main_v8 : Ref sig .tc := ⟨.hbm, 21, rfl⟩
abbrev main_cst_2 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_call0_cst : Ref sig .tc := ⟨.hbm, 35, rfl⟩
abbrev main_call0_v0 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_3 : Ref sig .tc := ⟨.hbm, 53, rfl⟩
abbrev main_v37 : Ref sig .tc := ⟨.hbm, 54, rfl⟩
abbrev main_cst_4 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_5 : Ref sig .tc := ⟨.hbm, 59, rfl⟩
abbrev main_v41 : Ref sig .tc := ⟨.hbm, 60, rfl⟩
abbrev main_cst_6 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_cst_7 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_cst_8 : Ref sig .tc := ⟨.hbm, 83, rfl⟩
abbrev main_v62 : Ref sig .tc := ⟨.hbm, 84, rfl⟩
abbrev main_v63 : Ref sig .tc := ⟨.hbm, 85, rfl⟩
abbrev main_cst_9 : Ref sig .tc := ⟨.hbm, 86, rfl⟩
abbrev main_call2_v0 : Ref sig .tc := ⟨.hbm, 87, rfl⟩
abbrev main_call2_v1 : Ref sig .tc := ⟨.hbm, 88, rfl⟩
abbrev main_v64 : Ref sig .tc := ⟨.hbm, 89, rfl⟩
abbrev main_v65 : Ref sig .tc := ⟨.hbm, 90, rfl⟩

abbrev nD : Nat := 1
abbrev τ : Topo := Topo.v7x

variable {F : FTy → Type} [FloatOps F]

class Facts₀ : Prop where
  transposes_S4096x4096_S4096x4096_1_0 : S4096x4096.Transposes [1, 0] S4096x4096
  bcast_S_S4096x4096 : S_.BroadcastsInDim S4096x4096 (![] : Fin 0 → Fin S4096x4096.rank)
  reducesTo_S4096x4096_S4096_d0 : S4096x4096.ReducesTo [0] S4096
  h_S_ : 0 < S_.numel
  bcast_S_S4096 : S_.BroadcastsInDim S4096 (![] : Fin 0 → Fin S4096.rank)
  bcast_S4096_S4096x1_0 : S4096.BroadcastsInDim S4096x1 (![0] : Fin 1 → Fin S4096x1.rank)
  bcast_S4096x1_S4096x128_0_1 : S4096x1.BroadcastsInDim S4096x128 (![0, 1] : Fin 2 → Fin S4096x128.rank)
  bcast_S128_S1x128_1 : S128.BroadcastsInDim S1x128 (![1] : Fin 1 → Fin S1x128.rank)
  bcast_S1x128_S4096x128_0_1 : S1x128.BroadcastsInDim S4096x128 (![0, 1] : Fin 2 → Fin S4096x128.rank)
  bcast_S_S4096x128 : S_.BroadcastsInDim S4096x128 (![] : Fin 0 → Fin S4096x128.rank)
  bcast_S64_S1x64_1 : S64.BroadcastsInDim S1x64 (![1] : Fin 1 → Fin S1x64.rank)
  bcast_S1x64_S4096x64_0_1 : S1x64.BroadcastsInDim S4096x64 (![0, 1] : Fin 2 → Fin S4096x64.rank)
  bcast_S1_S1x1_1 : S1.BroadcastsInDim S1x1 (![1] : Fin 1 → Fin S1x1.rank)
  bcast_S1x1_S4096x1_0_1 : S1x1.BroadcastsInDim S4096x1 (![0, 1] : Fin 2 → Fin S4096x1.rank)
  reducesTo_S4096x1_S_d0_1 : S4096x1.ReducesTo [0, 1] S_
  bcast_S_S4096x1 : S_.BroadcastsInDim S4096x1 (![] : Fin 0 → Fin S4096x1.rank)
  shapeCasts_S4096x1_S4096 : S4096x1.ShapeCasts S4096
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)
  reducesTo_S4096x4096_S4096_d1 : S4096x4096.ReducesTo [1] S4096
  bcast_S4096x1_S4096x4096_0_1 : S4096x1.BroadcastsInDim S4096x4096 (![0, 1] : Fin 2 → Fin S4096x4096.rank)
  dot_S4096x4096_S4096x4096_S4096x4096_1_0_0_1_n_n_wf : DotDims.WF S4096x4096 S4096x4096 S4096x4096 [1] [0] [0] [1] [] []
  dot_S4096x4096_S4096x128_S4096x128_1_0_0_1_n_n_wf : DotDims.WF S4096x4096 S4096x128 S4096x128 [1] [0] [0] [1] [] []
  dot_S4096x128_S128x128_S4096x128_1_0_0_1_n_n_wf : DotDims.WF S4096x128 S128x128 S4096x128 [1] [0] [0] [1] [] []
  dot_S4096x128_S128x64_S4096x64_1_0_0_1_n_n_wf : DotDims.WF S4096x128 S128x64 S4096x64 [1] [0] [0] [1] [] []
  dot_S4096x64_S64x1_S4096x1_1_0_0_1_n_n_wf : DotDims.WF S4096x64 S64x1 S4096x1 [1] [0] [0] [1] [] []

variable [Facts₀]

def dot_S4096x4096_S4096x4096_S4096x4096_1_0_0_1_n_n : DotDims S4096x4096 S4096x4096 S4096x4096 where
  lhsContracting := [1]
  rhsContracting := [0]
  lhsNonContracting := [0]
  rhsNonContracting := [1]
  lhsBatch := []
  rhsBatch := []
  wf := dot_S4096x4096_S4096x4096_S4096x4096_1_0_0_1_n_n_wf
def dot_S4096x4096_S4096x128_S4096x128_1_0_0_1_n_n : DotDims S4096x4096 S4096x128 S4096x128 where
  lhsContracting := [1]
  rhsContracting := [0]
  lhsNonContracting := [0]
  rhsNonContracting := [1]
  lhsBatch := []
  rhsBatch := []
  wf := dot_S4096x4096_S4096x128_S4096x128_1_0_0_1_n_n_wf
def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf
def dot_S4096x128_S128x64_S4096x64_1_0_0_1_n_n : DotDims S4096x128 S128x64 S4096x64 where
  lhsContracting := [1]
  rhsContracting := [0]
  lhsNonContracting := [0]
  rhsNonContracting := [1]
  lhsBatch := []
  rhsBatch := []
  wf := dot_S4096x128_S128x64_S4096x64_1_0_0_1_n_n_wf
def dot_S4096x64_S64x1_S4096x1_1_0_0_1_n_n : DotDims S4096x64 S64x1 S4096x1 where
  lhsContracting := [1]
  rhsContracting := [0]
  lhsNonContracting := [0]
  rhsNonContracting := [1]
  lhsBatch := []
  rhsBatch := []
  wf := dot_S4096x64_S64x1_S4096x1_1_0_0_1_n_n_wf

class Facts : Prop extends Facts₀ where

variable [Facts]
-- ==== Proof.LibWholeStore.lean ====
import Idealize.ShloMosaic.Lib.Pipeline.FrameBody
import Idealize.ShloMosaic.Lib.Pipeline.Value

noncomputable section

namespace Idealize.ShloMosaic.View

variable {Val : EltTy → Type} {S : Shape} {e : EltTy}

theorem read_writes_cons_unit_zero [∀ e, Nonempty (Val e)] {sig : RefSig} {κ : Kind} {sp : Space}
    (v : View sig κ sp S e) (f : v.ty.Contents Val) {off : Fin S.rank → Nat} (h : off = fun _ => 0)
    (inb : ∀ a, off a + S.size a ≤ S.size a) (w : S.Idx → Val e) (L : List (Piece Val S e)) :
    v.read Val (v.writes Val f ((⟨Rect.unit off S.size inb, w⟩ : Piece Val S e) :: L)) = w := by
  subst h
  rw [read_writes_eq_canon _ _ _ (fun y => ⟨_, List.mem_cons.mpr (Or.inl rfl), by
    show y ∈ (Rect.whole S).set; rw [Rect.set_whole]; exact Finset.mem_univ y⟩), canon_cons_unit_zero rfl]

theorem read_writes_unit_zero [∀ e, Nonempty (Val e)] {sig : RefSig} {κ : Kind} {sp : Space}
    (v : View sig κ sp S e) (f : v.ty.Contents Val) {off : Fin S.rank → Nat} (h : off = fun _ => 0)
    (inb : ∀ a, off a + S.size a ≤ S.size a) (w : S.Idx → Val e) :
    v.read Val (v.writes Val f [(⟨Rect.unit off S.size inb, w⟩ : Piece Val S e)]) = w :=
  read_writes_cons_unit_zero v f h inb w []

end Idealize.ShloMosaic.View

end
-- ==== Proof.LibAccRegion.lean ====
import Idealize.ShloMosaic.Lib.Pipeline.FrameBody

noncomputable section

namespace Idealize.ShloMosaic.AccRegion

open Idealize.SL Idealize.SL.RA Idealize.SL.BI
open scoped Idealize.SL.BI
open Idealize.SL.BI.BIBase Idealize.SL.BI.Laws Idealize.SL.ProofMode

variable {α β : Type} {N : ℕ} (p : ℕ) (z : α) (f : Fin N → α → α)

-- The accumulator after point n: one step of f, from z at every p-th point and from the previous point otherwise.
def accAt : (n : ℕ) → n < N → α
  | 0, hn => f ⟨0, hn⟩ z
  | n + 1, hn => f ⟨n + 1, hn⟩ (if (n + 1) % p = 0 then z else accAt n (Nat.lt_of_succ_lt hn))

theorem accAt_reset (t : Fin N) (h0 : t.val % p = 0) : accAt p z f t.val t.isLt = f t z := by
  obtain ⟨n, hn⟩ := t
  cases n with
  | zero => rfl
  | succ n => exact congrArg (f _) (if_pos h0)

theorem accAt_step (t : Fin N) (h0 : ¬t.val % p = 0) :
    accAt p z f t.val t.isLt = f t (accAt p z f (t.val - 1) (Nat.lt_of_le_of_lt (Nat.sub_le _ _) t.isLt)) := by
  obtain ⟨n, hn⟩ := t
  cases n with
  | zero => exact absurd (Nat.zero_mod _) h0
  | succ n => exact congrArg (f _) (if_neg h0)

variable {M : Type} [URA M] (A R : sProp M) (S : α → sProp M) (acc : (n : ℕ) → n < N → α)

-- The invariant before point n: the entry resources at 0, afterwards the accumulator at what point n - 1 left.
def PhiAt : (n : ℕ) → n ≤ N → sProp M
  | 0, _ => A
  | n + 1, hn => iprop(S (acc n hn) ∗ R)

theorem PhiAt_pos (n : ℕ) (h : n ≤ N) (hn : n ≠ 0) :
    PhiAt A R S acc n h = iprop(S (acc (n - 1) (by omega)) ∗ R) := by
  cases n with
  | zero => exact absurd rfl hn
  | succ n => rfl

variable {A R S}

-- Whatever the point, the invariant holds the accumulator at SOME contents.
theorem PhiAt_some (hA : A ⊢ iprop((∃ d, S d) ∗ R)) (n : ℕ) (h : n ≤ N) :
    PhiAt A R S acc n h ⊢ iprop((∃ d, S d) ∗ R) := by
  cases n with
  | zero => exact hA
  | succ n => unfold PhiAt; iintro ⟨HS, HR⟩; iframe HR; iexists _; iexact HS

theorem PhiAt_out (hA : iprop((∃ d, S d) ∗ R) ⊢ A) (hN : N ≠ 0) : PhiAt A R S acc N (Nat.le_refl N) ⊢ A := by
  rw [PhiAt_pos A R S acc N _ hN]
  refine .trans ?_ hA
  iintro ⟨HS, HR⟩; iframe HR; iexists _; iexact HS

-- A body W run from P ends in Q, in continuation form.
def Triple (W : (PUnit → sProp M) → sProp M) (P Q : sProp M) : Prop := ∀ K, iprop(P ∗ (Q -∗ K ⟨⟩)) ⊢ W K

-- One grid point of a region that accumulates into S: its body, run from any accumulator s and any output
-- block xi, steps the accumulator (from z at a reset point) and at a last point writes the output from it;
-- this carries the invariant from point t to point t + 1.
theorem step (hA : A ⊢ iprop((∃ d, S d) ∗ R)) (e : α → β) (W : (PUnit → sProp M) → sProp M) (t : Fin N)
    (reset last : Prop) [Decidable reset] [Decidable last] {δ : Type} (b : δ → β)
    {Ow P0 P1 I0 I1 Q2 : sProp M} {O : β → sProp M}
    (hr : reset ↔ t.val % p = 0) (h0 : P0 ⊢ I0) (h1 : P1 ⊢ I1)
    (hN : ¬last → iprop(∃ d, O (b d)) ⊢ Q2) (hQ : last → O (e (accAt p z f t.val t.isLt)) ⊢ Q2)
    (hB : ∀ xi s, Triple W iprop(I0 ∗ I1 ∗ O xi ∗ S s)
      iprop(I0 ∗ I1 ∗ O (if last then e (f t (if reset then z else s)) else xi) ∗ S (f t (if reset then z else s)))) :
    iprop(PhiAt A R S (accAt p z f) t.val (Nat.le_of_lt t.isLt) ∗ Ow ∗ P0 ∗ P1 ∗ ∃ d, O (b d))
      ⊢ W fun _ => iprop(PhiAt A R S (accAt p z f) (t.val + 1) t.isLt ∗ Ow ∗ I0 ∗ I1 ∗ Q2) := by
  rw [show PhiAt A R S (accAt p z f) (t.val + 1) t.isLt = iprop(S (accAt p z f t.val t.isLt) ∗ R) from rfl]
  have key : PhiAt A R S (accAt p z f) t.val (Nat.le_of_lt t.isLt)
      ⊢ iprop(∃ s, ⌜accAt p z f t.val t.isLt = f t (if reset then z else s)⌝ ∗ S s ∗ R) := by
    by_cases hz : reset
    · refine (PhiAt_some (accAt p z f) hA t.val _).trans ?_
      iintro ⟨⟨%s, HS⟩, HR⟩; iexists s; iframe; ipureintro; rw [if_pos hz]; exact accAt_reset p z f t (hr.mp hz)
    · have hz' := mt hr.mpr hz
      rw [PhiAt_pos A R S _ _ _ (fun h => hz' (by rw [h]; exact Nat.zero_mod p))]
      iintro ⟨HS, HR⟩; iexists _; iframe; ipureintro; rw [if_neg hz]; exact accAt_step p z f t hz'
  iintro ⟨HΦ, Ho, H0, H1, %d, H2⟩
  ihave HΦ := key $$ HΦ
  icases HΦ with ⟨%s, %hs, HS, HR⟩
  rw [hs]; rw [hs] at hQ
  iapply hB (b d) s _
  isplitl [H0 H1 H2 HS]
  · isplitl [H0]; · iapply h0; iexact H0
    isplitl [H1]; · iapply h1; iexact H1
    iframe
  iintro ⟨H0, H1, H2, HS⟩
  iframe
  by_cases hlast : last
  · rw [if_pos hlast]; iapply hQ hlast; iexact H2
  · rw [if_neg hlast]; iapply hN hlast; iexists d; iexact H2

end Idealize.ShloMosaic.AccRegion

end
-- ==== Proof.KI.Reg0.lean ====
import proofs.«139954_j43997644980465_1_alg».proof.Proof.Gen.KernelIdeal.Launch
import proofs.«139954_j43997644980465_1_alg».proof.Proof.Gen.KernelIdeal.Skeleton
import proofs.«139954_j43997644980465_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«139954_j43997644980465_1_alg».proof.Proof.LibWholeStore
import proofs.«139954_j43997644980465_1_alg».proof.Proof.LibAccRegion
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

theorem hz2_0 : (![0, 0] : Fin 2 → Nat) = fun _ => 0 := funext fun a => by fin_cases a <;> rfl

abbrev epi0 (s : Vec F S1024x1024 .f32) : Vec F S1024x1024 .f32 := k0_pay3 s

abbrev shareL0 : PosShare TreeShare := fullShare.left
abbrev shareR0 : PosShare TreeShare := fullShare.right

abbrev cond0_0 (i : grid0.Coords) : Prop := (Scalar.cmpi .ne (Scalar.extui (Scalar.cmpi .eq (BitVec.ofNat 32 (i 2).val) 0#32)) 0#32) = 1#1

abbrev cond0_1 (i : grid0.Coords) : Prop := k0_cond2 i = 1#1

theorem hcond0_0 : ∀ t : Fin cfg0.N, cond0_0 (grid0.coords t) ↔ t.val % 4 = 0 :=
  (by decide +kernel : ∀ t : Fin grid0.N, cond0_0 (grid0.coords t) ↔ t.val % 4 = 0)
theorem hcond0_1 : ∀ t : Fin cfg0.N, cond0_1 (grid0.coords t) ↔ t.val % 4 = 3 :=
  (by decide +kernel : ∀ t : Fin grid0.N, cond0_1 (grid0.coords t) ↔ t.val % 4 = 3)

theorem liveAt0_0 : ∀ t : Fin cfg0.N, cfg0.idle 0 (grid0.coords t) = false := by decide +kernel
theorem liveAt0_1 : ∀ t : Fin cfg0.N, cfg0.idle 1 (grid0.coords t) = false := by decide +kernel
theorem idleAt0_2 : ∀ t : Fin cfg0.N, ¬cond0_1 (grid0.coords t) → cfg0.idle 2 (grid0.coords t) = true := by decide +kernel
theorem noFlush0_2 : ∀ t : Fin cfg0.N, ¬cond0_1 (grid0.coords t) → (cfg0.win 2).flush t = false := by decide +kernel
theorem liveAt0_2 : ∀ t : Fin cfg0.N, cond0_1 (grid0.coords t) → cfg0.idle 2 (grid0.coords t) = false := by decide +kernel

section Run

variable (c : Dev nD) (E : Set ℕ) (i : grid0.Coords) (arg3 arg4 : Memref sig .tc .vmem S1024x1024 .bf16) (arg5 arg6 : Memref sig .tc .vmem S1024x1024 .f32)
  (harg3 : arg3.IsWhole) (harg4 : arg4.IsWhole) (harg5 : arg5.IsWhole) (harg6 : arg6.IsWhole) (x0 x1 : Vec F S1024x1024 .bf16)

set_option maxHeartbeats 1000000 in
-- The body at one point: the accumulator takes one step, from the zero block at a reset point and from what it
-- held otherwise; at a last point the output block is written from it, else it is left as found.
theorem sound0 (h01 : cond0_1 i → ¬cond0_0 i) (xi s : Vec F S1024x1024 .f32) :
    AccRegion.Triple (M := 𝕄) (wp frame (wpE (defs₀ (F := F)) Variants.none c none) E (cc0__cooc_kernel i arg3 harg3 arg4 harg4 arg5 harg5 arg6 harg6))
      iprop(owns (c : Thread nD τ) arg3 fullShare x0 ∗ owns (c : Thread nD τ) arg4 fullShare x1 ∗ owns (c : Thread nD τ) arg5 fullShare xi ∗ owns (c : Thread nD τ) arg6 fullShare s)
      iprop(owns (c : Thread nD τ) arg3 fullShare x0 ∗ owns (c : Thread nD τ) arg4 fullShare x1
        ∗ owns (c : Thread nD τ) arg5 fullShare (if cond0_1 i then epi0 (k0_pay2 (if cond0_0 i then k0_pay1 else s) x0 x1) else xi)
        ∗ owns (c : Thread nD τ) arg6 fullShare (k0_pay2 (if cond0_0 i then k0_pay1 else s) x0 x1)) := fun K => by
  by_cases hc1 : cond0_1 i <;> by_cases hc0 : cond0_0 i
  on_goal 1 => exact absurd hc0 (h01 hc1)
  all_goals
    first | rw [if_pos hc1] | rw [if_neg hc1]
    first | rw [if_pos hc0] | rw [if_neg hc0]
    simp only [cc0__cooc_kernel_eq_skeleton]; unfold cc0__cooc_kernel_skel
    unfold owns
    iintro ⟨⟨⟨%f0, %hf0, H0⟩, ⟨%f1, %hf1, H1⟩, ⟨%f2, %hf2, H2⟩, ⟨%f3, %hf3, H3⟩⟩, Hk⟩
    subst hf0; subst hf1; subst hf2; subst hf3
    sl_exec (disch := first | exact hc0 | exact hc1)
    sl_step
    iapply Hk
    isplitl [H0]
    · iexists _; isplitr; · ipureintro; rfl
      iexact H0
    isplitl [H1]
    · iexists _; isplitr; · ipureintro; rfl
      iexact H1
    isplitl [H2]
    · iexists _; isplitr
      swap; · iexact H2
      ipureintro
      first
      | rfl
      | sl_unfold_words
        rw [View.read_writes_cons_unit_zero _ _ hz2_0]
        simp only [View.readAt_eq_ld, View.ld_unit_zero (S := S1024x1024) hz2_0, View.readCov_unit_zero (S := S1024x1024) _ hz2_0]
    iexists _; isplitr
    swap; · iexact H3
    ipureintro
    sl_unfold_words
    rw [View.read_writes_cons_unit_zero _ _ hz2_0]
    simp only [View.readAt_eq_ld, View.ld_unit_zero (S := S1024x1024) hz2_0, View.readCov_unit_zero (S := S1024x1024) _ hz2_0]

end Run

abbrev ms0_0 (t : Fin cfg0.N) : Memref sig .tc .vmem S1024x1024 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x1024 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x1024 .f32 := win0_2.stage (cfg0.slots t 2)
abbrev hs0_2 (t : Fin cfg0.N) : (ms0_2 t).IsWhole := hstage0_2 ((cfg0.slots t 2).cast nbuf0_2)

abbrev scM0 : Memref sig .tc .vmem S1024x1024 .f32 := Memref.whole cc0_scratch0

abbrev rest0 (c : Dev nD) : sProp 𝕄 :=
  iprop(Pipeline.scopedRestBut (Ix := Unit) (Name := ℕ) (U := UR sig nD τ) (Lvl := ℕ) (Val := Elt F) spec0 c [cc0_scratch0] ∗ ∃ r, prngReg c r)

-- The entry resources are the accumulator at some contents beside the rest.
theorem PhiA0_eq (c : Dev nD) :
    (Pipeline.ΦA spec0 c : sProp 𝕄) ⊣⊢ iprop((∃ d, owns (c : Thread nD τ) scM0 fullShare d) ∗ rest0 c) := by
  unfold Pipeline.ΦA; rw [scopedRest0_split]; simp only [scM0, owns_whole]; exact sep_assoc

section Region

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

def scr0 (c : Dev nD) : (n : ℕ) → n < cfg0.N → Vec F S1024x1024 .f32 :=
  AccRegion.accAt 4 k0_pay1 fun t s => k0_pay2 s (iblk0 V c 0 t) (iblk0 V c 1 t)

theorem scr0_reset (c : Dev nD) (t : Fin cfg0.N) (h0 : t.val % 4 = 0) :
    scr0 V c t.val t.isLt = k0_pay2 k0_pay1 (iblk0 V c 0 t) (iblk0 V c 1 t) :=
  AccRegion.accAt_reset 4 _ _ t h0

theorem scr0_step (c : Dev nD) (t : Fin cfg0.N) (h0 : ¬t.val % 4 = 0) :
    scr0 V c t.val t.isLt = k0_pay2 (scr0 V c (t.val - 1) (Nat.lt_of_le_of_lt (Nat.sub_le _ _) t.isLt)) (iblk0 V c 0 t) (iblk0 V c 1 t) :=
  AccRegion.accAt_step 4 _ _ t h0

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => epi0 (scr0 V c t.val t.isLt)
  Φ t := AccRegion.PhiAt (Pipeline.ΦA spec0 c) (rest0 c) (owns (c : Thread nD τ) scM0 fullShare) (scr0 V c) t.val (Nat.le_of_lt_succ t.isLt)
  q w := match w with
    | ⟨0, _⟩ => shareL0
    | ⟨1, _⟩ => shareR0
    | ⟨2, _⟩ => fullShare
  owed _ := 0

theorem A_eq0 (c : Dev nD) (w : Fin cfg0.W) : (dat0 V c).A w = V c (Pipeline.arrRef spec0 w) := by
  dsimp only [dat0]
theorem q0_0 (c : Dev nD) : (dat0 V c).q 0 = shareL0 := by dsimp only [dat0]
theorem q0_1 (c : Dev nD) : (dat0 V c).q 1 = shareR0 := by dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = epi0 (scr0 V c t.val t.isLt) := by dsimp only [dat0]

theorem before0_in (c : Dev nD) : (∀ t d, (dat0 V c).before 0 t d = iblk0 V c 0 t) ∧ ∀ t d, (dat0 V c).before 1 t d = iblk0 V c 1 t := by
  constructor <;> intro t d <;>
  exact ((dat0 V c).before_in_eq_fetched _ rfl (fun _ => rfl) (fun _ _ _ => rfl) (fun t => by dsimp only [dat0]; unfold Dat.blockOf iblk0; dsimp only [dat0]; try rfl) t d).trans
    (by unfold Dat.fetched Dat.blockOf iblk0; dsimp only [dat0]; try rfl)

set_option maxHeartbeats 400000 in
theorem body_obligation0 (c : Dev nD) : BodyObligation (dat0 (F := F) V c) (defs₀ (F := F)) Variants.none () Set.univ := fun t => by
  rw [bigSep_W0, bigSep_W0]
  refine AccRegion.step 4 _ _ (PhiA0_eq c).1 epi0 (wp frame (wpE (defs₀ (F := F)) Variants.none c none) Set.univ (bodyAt0 t)) t
    (cond0_0 (grid0.coords t)) (cond0_1 (grid0.coords t)) ((dat0 V c).before 2 t)
    (I0 := owns (c : Thread nD τ) (ms0_0 t) fullShare (iblk0 V c 0 t)) (I1 := owns (c : Thread nD τ) (ms0_1 t) fullShare (iblk0 V c 1 t))
    (O := owns (c : Thread nD τ) (ms0_2 t) fullShare) (hcond0_0 t) ?_ ?_ (fun h => ?_) (fun h => ?_)
    (sound0 c Set.univ (grid0.coords t) _ _ _ scM0 (hs0_0 t) (hs0_1 t) (hs0_2 t) (Memref.isWhole_whole _) _ _
      fun h h' => by rw [hcond0_0] at h'; rw [hcond0_1] at h; omega)
  · iintro ⟨%d, H⟩; rw [(before0_in V c).1]; iexact H
  · iintro ⟨%d, H⟩; rw [(before0_in V c).2]; iexact H
  · rw [idleAt0_2 t h, noFlush0_2 t h]
  · rw [liveAt0_2 t h]; exact .rfl

theorem hin0 (c : Dev nD) : Pipeline.ΦA spec0 c ⊢ (dat0 V c).Φ 0 := .rfl

theorem hout0 (c : Dev nD) : (dat0 V c).Φ (Fin.last cfg0.N) ⊢ Pipeline.ΦA spec0 c :=
  AccRegion.PhiAt_out (N := cfg0.N) (scr0 V c) (PhiA0_eq c).2 (by rw [show cfg0.N = 64 from N_0]; decide)

end Region

end Cert.KernelIdeal.Hand

end
-- ==== Proof.LibConvRegion.lean ====
import Idealize.ShloMosaic.Lib.Pipeline.FrameBody
import Idealize.ShloMosaic.Lib.Tactic

noncomputable section

namespace Idealize.ShloMosaic.ConvRegion

open Idealize.ShloMosaic Idealize.ShloMosaic.TcCoe Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg)

theorem hz2 : (![0, 0] : Fin 2 → Nat) = fun _ => 0 := funext fun a => by fin_cases a <;> rfl

section Live

variable {nD : Nat} {τ : Topo} {sig : RefSig} {Val : EltTy → Type} {Λ₀ : Idealize.SL.Sem.Labels}
  {Ix : Type} [DecidableEq Ix] {Name : Type} [DecidableEq Name] {U : Type} [URA U] {Lvl : Type}
  {cfg : Cfg sig Λ₀} {c : Dev nD} (dat : Dat τ Val Ix Name U Lvl cfg c)

-- At a point live for the window the body leaves its buffer at `after`.
theorem leavesExact_live (w : Fin cfg.W) (t : Fin cfg.N) (h : cfg.idle w (cfg.grid.coords t) = false) :
    dat.leavesExact w t = owns c ((cfg.win w).stage (cfg.slots t w)) fullShare (dat.after w t) := by
  unfold Dat.leavesExact; rw [h]

end Live

section Step

variable {M : Type} [URA M] {Ef : Type → Type} {Mask : Type} {Fr : Mask → sProp M}
  {wpE : Mask → ∀ ⦃β : Type⦄, Ef β → sWPT M β} {E : Mask} {p : Prog Ef PUnit}
  {D0 D1 D2 D3 D4 D5 D6 D : Type} {A0 A1 A2 A3 A4 A5 A6 PS QS R G Ho QO' : sProp M} {PO QO : D → sProp M}

-- A run that hands its seven inputs back to its continuation frames the rest of the invariant and of the obligation.
theorem conv_step (hQ : ∀ d, QO d ⊢ QO')
    (h : ∀ d (K : PUnit → sProp M),
      iprop((A0 ∗ A1 ∗ A2 ∗ A3 ∗ A4 ∗ A5 ∗ A6) ∗ (PO d ∗ PS) ∗ (((A0 ∗ A1 ∗ A2 ∗ A3 ∗ A4 ∗ A5 ∗ A6) ∗ QO d ∗ QS) -∗ K ⟨⟩))
        ⊢ wp Fr wpE E p K) :
    iprop(((PS ∗ R) ∗ G) ∗ Ho ∗ (∃ _ : D0, A0) ∗ (∃ _ : D1, A1) ∗ (∃ _ : D2, A2) ∗ (∃ _ : D3, A3) ∗ (∃ _ : D4, A4)
        ∗ (∃ _ : D5, A5) ∗ (∃ _ : D6, A6) ∗ (∃ d, PO d))
      ⊢ wp Fr wpE E p fun _ => iprop(((QS ∗ R) ∗ G) ∗ Ho ∗ A0 ∗ A1 ∗ A2 ∗ A3 ∗ A4 ∗ A5 ∗ A6 ∗ QO') := by
  iintro ⟨⟨⟨HS, HR⟩, Hg⟩, Ho, ⟨%_, H0⟩, ⟨%_, H1⟩, ⟨%_, H2⟩, ⟨%_, H3⟩, ⟨%_, H4⟩, ⟨%_, H5⟩, ⟨%_, H6⟩, ⟨%d, H7⟩⟩
  iapply h d
  iframe H0 H1 H2 H3 H4 H5 H6 H7 HS
  iintro ⟨⟨H0, H1, H2, H3, H4, H5, H6⟩, H7, HS⟩
  iframe HS HR Hg Ho H0 H1 H2 H3 H4 H5 H6
  iapply hQ d $$ H7

end Step

end Idealize.ShloMosaic.ConvRegion

end
-- ==== Proof.KI.Reg1.lean ====
import proofs.«139954_j43997644980465_1_alg».proof.Proof.Gen.KernelIdeal.Launch
import proofs.«139954_j43997644980465_1_alg».proof.Proof.Gen.KernelIdeal.Skeleton
import proofs.«139954_j43997644980465_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«139954_j43997644980465_1_alg».proof.Proof.LibWholeStore
import proofs.«139954_j43997644980465_1_alg».proof.Proof.LibConvRegion

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.ConvRegion

variable {F : FTy → Type} [FloatOps F]

local notation "𝕄" => MT nD τ sig Unit (Elt F) ℕ (UR sig nD τ) ℕ

abbrev SW1 : Shape := S128x128
abbrev SB1 : Shape := S1x128
abbrev SOut1 : Shape := S1024x128

abbrev shareL1 : PosShare TreeShare := fullShare.left
abbrev shareR1 : PosShare TreeShare := fullShare.right

abbrev cond1_0 (i : grid1.Coords) : Prop := (Scalar.cmpi .ne (Scalar.extui (Scalar.cmpi .eq (BitVec.ofNat 32 (i 1).val) 0#32)) 0#32) = 1#1

abbrev cond1_1 (i : grid1.Coords) : Prop := k1_cond2 i = 1#1

theorem hcond1_0 : ∀ t : Fin cfg1.N, cond1_0 (grid1.coords t) ↔ t.val % 4 = 0 :=
  (by decide +kernel : ∀ t : Fin grid1.N, cond1_0 (grid1.coords t) ↔ t.val % 4 = 0)
theorem hcond1_1 : ∀ t : Fin cfg1.N, cond1_1 (grid1.coords t) ↔ t.val % 4 = 3 :=
  (by decide +kernel : ∀ t : Fin grid1.N, cond1_1 (grid1.coords t) ↔ t.val % 4 = 3)

theorem liveAt1 : ∀ (w : Fin 8) (t : Fin cfg1.N), w ≠ 7 → cfg1.idle w (grid1.coords t) = false := by decide +kernel
theorem idleAt1_7 : ∀ t : Fin cfg1.N, ¬cond1_1 (grid1.coords t) → cfg1.idle 7 (grid1.coords t) = true := by decide +kernel
theorem noFlush1_7 : ∀ t : Fin cfg1.N, ¬cond1_1 (grid1.coords t) → (cfg1.win 7).flush t = false := by decide +kernel
theorem liveAt1_7 : ∀ t : Fin cfg1.N, cond1_1 (grid1.coords t) → cfg1.idle 7 (grid1.coords t) = false := by decide +kernel

section Run

variable (c : Dev nD) (E : Set ℕ) (i : grid1.Coords)
  (arg2 : Memref sig .tc .vmem S1024x1024 .f32) (harg2 : arg2.IsWhole) (arg3 : Memref sig .tc .vmem S1024x128 .f32) (harg3 : arg3.IsWhole)
  (arg4 : Memref sig .tc .vmem S1024x128 .f32) (harg4 : arg4.IsWhole) (arg5 : Memref sig .tc .vmem S1024x1 .f32) (harg5 : arg5.IsWhole)
  (arg6 : Memref sig .tc .vmem SW1 .f32) (harg6 : arg6.IsWhole) (arg7 : Memref sig .tc .vmem SB1 .f32) (harg7 : arg7.IsWhole)
  (arg8 : Memref sig .tc .vmem SW1 .f32) (harg8 : arg8.IsWhole) (arg9 : Memref sig .tc .vmem SOut1 .f32) (harg9 : arg9.IsWhole)
  (arg10 : Memref sig .tc .vmem S1024x128 .f32) (harg10 : arg10.IsWhole)
  (x0 : Vec F S1024x1024 .f32) (x1 x2 : Vec F S1024x128 .f32) (x3 : Vec F S1024x1 .f32) (x4 : Vec F SW1 .f32) (x5 : Vec F SB1 .f32) (x6 : Vec F SW1 .f32)

abbrev ins1 : sProp 𝕄 :=
  iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6)

-- The kernel body taken from `P` to `Q`, its seven inputs held and handed back.
abbrev Run1 (P Q : sProp 𝕄) : Prop := ∀ K : PUnit → sProp 𝕄,
  iprop(ins1 c arg2 arg3 arg4 arg5 arg6 arg7 arg8 x0 x1 x2 x3 x4 x5 x6 ∗ P ∗ ((ins1 c arg2 arg3 arg4 arg5 arg6 arg7 arg8 x0 x1 x2 x3 x4 x5 x6 ∗ Q) -∗ K ⟨⟩))
    ⊢ wp frame (wpE (defs₀ (F := F)) Variants.none c none) E (cc1__sage_kernel i arg2 harg2 arg3 harg3 arg4 harg4 arg5 harg5 arg6 harg6 arg7 harg7 arg8 harg8 arg9 harg9 arg10 harg10) K

variable {c E i arg2 harg2 arg3 harg3 arg4 harg4 arg5 harg5 arg6 harg6 arg7 harg7 arg8 harg8 arg9 harg9 arg10 harg10 x0 x1 x2 x3 x4 x5 x6}

set_option maxHeartbeats 2000000 in
theorem sound1_A (hc0 : cond1_0 i) (hc1 : ¬cond1_1 i) {xo : Vec F SOut1 .f32} :
    Run1 c E i arg2 harg2 arg3 harg3 arg4 harg4 arg5 harg5 arg6 harg6 arg7 harg7 arg8 harg8 arg9 harg9 arg10 harg10 x0 x1 x2 x3 x4 x5 x6
      iprop(owns (c : Thread nD τ) arg9 fullShare xo ∗ (∃ d, owns (c : Thread nD τ) arg10 fullShare d))
      iprop(owns (c : Thread nD τ) arg9 fullShare xo ∗ owns (c : Thread nD τ) arg10 fullShare (k1_pay2 x0 x1 k1_pay1)) := by
  intro K
  simp only [cc1__sage_kernel_eq_skeleton]; unfold cc1__sage_kernel_skel
  unfold ins1 owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩⟩, ⟨⟨%f7, %hf7, H7⟩, ⟨%d8, %f8, -, H8⟩⟩, Hk⟩
  subst hf0; subst hf1; subst hf2; subst hf3; subst hf4; subst hf5; subst hf6; subst hf7
  sl_exec (disch := first | exact hc0 | exact hc1)
  sl_step
  iapply Hk
  isplitl [H0 H1 H2 H3 H4 H5 H6]
  · isplitl [H0]
    · iexists _; isplitr; · ipureintro; rfl
      iexact H0
    isplitl [H1]
    · iexists _; isplitr; · ipureintro; rfl
      iexact H1
    isplitl [H2]
    · iexists _; isplitr; · ipureintro; rfl
      iexact H2
    isplitl [H3]
    · iexists _; isplitr; · ipureintro; rfl
      iexact H3
    isplitl [H4]
    · iexists _; isplitr; · ipureintro; rfl
      iexact H4
    isplitl [H5]
    · iexists _; isplitr; · ipureintro; rfl
      iexact H5
    iexists _; isplitr; · ipureintro; rfl
    iexact H6
  isplitl [H7]
  · iexists _; isplitr; · ipureintro; rfl
    iexact H7
  iexists _; isplitr
  swap; · iexact H8
  ipureintro
  sl_unfold_words
  rw [View.read_writes_cons_unit_zero _ _ hz2]
  simp only [View.readAt_eq_ld, View.ld_unit_zero (S := S1024x1024) hz2, View.ld_unit_zero (S := S1024x128) hz2, View.readCov_unit_zero (S := S1024x128) _ hz2]

set_option maxHeartbeats 2000000 in
theorem sound1_B (hc0 : ¬cond1_0 i) (hc1 : ¬cond1_1 i) {xo : Vec F SOut1 .f32} {s : Vec F S1024x128 .f32} :
    Run1 c E i arg2 harg2 arg3 harg3 arg4 harg4 arg5 harg5 arg6 harg6 arg7 harg7 arg8 harg8 arg9 harg9 arg10 harg10 x0 x1 x2 x3 x4 x5 x6
      iprop(owns (c : Thread nD τ) arg9 fullShare xo ∗ owns (c : Thread nD τ) arg10 fullShare s)
      iprop(owns (c : Thread nD τ) arg9 fullShare xo ∗ owns (c : Thread nD τ) arg10 fullShare (k1_pay2 x0 x1 s)) := by
  intro K
  simp only [cc1__sage_kernel_eq_skeleton]; unfold cc1__sage_kernel_skel
  unfold ins1 owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩⟩, ⟨⟨%f7, %hf7, H7⟩, ⟨%f8, %hf8, H8⟩⟩, Hk⟩
  subst hf0; subst hf1; subst hf2; subst hf3; subst hf4; subst hf5; subst hf6; subst hf7; subst hf8
  sl_exec (disch := first | exact hc0 | exact hc1)
  sl_step
  iapply Hk
  isplitl [H0 H1 H2 H3 H4 H5 H6]
  · isplitl [H0]
    · iexists _; isplitr; · ipureintro; rfl
      iexact H0
    isplitl [H1]
    · iexists _; isplitr; · ipureintro; rfl
      iexact H1
    isplitl [H2]
    · iexists _; isplitr; · ipureintro; rfl
      iexact H2
    isplitl [H3]
    · iexists _; isplitr; · ipureintro; rfl
      iexact H3
    isplitl [H4]
    · iexists _; isplitr; · ipureintro; rfl
      iexact H4
    isplitl [H5]
    · iexists _; isplitr; · ipureintro; rfl
      iexact H5
    iexists _; isplitr; · ipureintro; rfl
    iexact H6
  isplitl [H7]
  · iexists _; isplitr; · ipureintro; rfl
    iexact H7
  iexists _; isplitr
  swap; · iexact H8
  ipureintro
  sl_unfold_words
  rw [View.read_writes_cons_unit_zero _ _ hz2]
  simp only [View.readAt_eq_ld, View.ld_unit_zero (S := S1024x1024) hz2, View.ld_unit_zero (S := S1024x128) hz2]

set_option maxHeartbeats 2000000 in
theorem sound1_C (hc0 : ¬cond1_0 i) (hc1 : cond1_1 i) {xo : Vec F SOut1 .f32} {s : Vec F S1024x128 .f32} :
    Run1 c E i arg2 harg2 arg3 harg3 arg4 harg4 arg5 harg5 arg6 harg6 arg7 harg7 arg8 harg8 arg9 harg9 arg10 harg10 x0 x1 x2 x3 x4 x5 x6
      iprop(owns (c : Thread nD τ) arg9 fullShare xo ∗ owns (c : Thread nD τ) arg10 fullShare s)
      iprop(owns (c : Thread nD τ) arg9 fullShare (k1_pay3 (k1_pay2 x0 x1 s) x3 x4 x2 x6 x5) ∗ owns (c : Thread nD τ) arg10 fullShare (k1_pay2 x0 x1 s)) := by
  intro K
  simp only [cc1__sage_kernel_eq_skeleton]; unfold cc1__sage_kernel_skel
  unfold ins1 owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩⟩, ⟨⟨%f7, -, H7⟩, ⟨%f8, %hf8, H8⟩⟩, Hk⟩
  subst hf0; subst hf1; subst hf2; subst hf3; subst hf4; subst hf5; subst hf6; subst hf8
  sl_exec (disch := first | exact hc0 | exact hc1)
  sl_step
  iapply Hk
  isplitl [H0 H1 H2 H3 H4 H5 H6]
  · isplitl [H0]
    · iexists _; isplitr; · ipureintro; rfl
      iexact H0
    isplitl [H1]
    · iexists _; isplitr; · ipureintro; rfl
      iexact H1
    isplitl [H2]
    · iexists _; isplitr; · ipureintro; rfl
      iexact H2
    isplitl [H3]
    · iexists _; isplitr; · ipureintro; rfl
      iexact H3
    isplitl [H4]
    · iexists _; isplitr; · ipureintro; rfl
      iexact H4
    isplitl [H5]
    · iexists _; isplitr; · ipureintro; rfl
      iexact H5
    iexists _; isplitr; · ipureintro; rfl
    iexact H6
  isplitl [H7]
  · iexists _; isplitr
    swap; · iexact H7
    ipureintro
    sl_unfold_words
    rw [View.read_writes_unit_zero _ _ hz2]
    simp only [View.readAt_eq_ld, View.ld_unit_zero (S := S1024x1024) hz2, View.ld_unit_zero (S := S1024x128) hz2, View.ld_unit_zero (S := S1024x1) hz2, View.ld_unit_zero (S := S128x128) hz2, View.ld_unit_zero (S := S1x128) hz2, View.readCov_unit_zero (S := S1024x128) _ hz2]
  iexists _; isplitr
  swap; · iexact H8
  ipureintro
  sl_unfold_words
  rw [View.read_writes_cons_unit_zero _ _ hz2]
  simp only [View.readAt_eq_ld, View.ld_unit_zero (S := S1024x1024) hz2, View.ld_unit_zero (S := S1024x128) hz2]

end Run

abbrev scM1 : Memref sig .tc .vmem S1024x128 .f32 := Memref.whole cc1_scratch0

abbrev restBut1 (c : Dev nD) : sProp 𝕄 :=
  Pipeline.scopedRestBut (Ix := Unit) (Name := ℕ) (U := UR sig nD τ) (Lvl := ℕ) (Val := Elt F) spec1 c [cc1_scratch0]

theorem PhiA1_eq (c : Dev nD) :
    (Pipeline.ΦA spec1 c : sProp 𝕄)
      = iprop((iprop(∃ d, owns (c : Thread nD τ) scM1 fullShare d) ∗ restBut1 c) ∗ (∃ r, prngReg c r)) := by
  unfold Pipeline.ΦA; rw [scopedRest1_split]; simp only [scM1, owns_whole]; try rfl

section Region

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

def scr1 (c : Dev nD) : (n : ℕ) → n < cfg1.N → Vec F S1024x128 .f32
  | 0, hn => k1_pay2 (iblk1 V c 0 ⟨0, hn⟩) (iblk1 V c 1 ⟨0, hn⟩) k1_pay1
  | n + 1, hn =>
    if (n + 1) % 4 = 0 then k1_pay2 (iblk1 V c 0 ⟨n + 1, hn⟩) (iblk1 V c 1 ⟨n + 1, hn⟩) k1_pay1
    else k1_pay2 (iblk1 V c 0 ⟨n + 1, hn⟩) (iblk1 V c 1 ⟨n + 1, hn⟩) (scr1 c n (Nat.lt_of_succ_lt hn))

theorem scr1_reset (c : Dev nD) (t : Fin cfg1.N) (h0 : t.val % 4 = 0) :
    scr1 V c t.val t.isLt = k1_pay2 (iblk1 V c 0 t) (iblk1 V c 1 t) k1_pay1 := by
  obtain ⟨n, hn⟩ := t
  cases n with
  | zero => rfl
  | succ n => exact if_pos h0

theorem scr1_step (c : Dev nD) (t : Fin cfg1.N) (h0 : ¬t.val % 4 = 0) :
    scr1 V c t.val t.isLt = k1_pay2 (iblk1 V c 0 t) (iblk1 V c 1 t) (scr1 V c (t.val - 1) (Nat.lt_of_le_of_lt (Nat.sub_le _ _) t.isLt)) := by
  obtain ⟨n, hn⟩ := t
  cases n with
  | zero => exact absurd (Nat.zero_mod _) h0
  | succ n => exact if_neg h0

def outAt1 (c : Dev nD) (t : Fin cfg1.N) : Vec F SOut1 .f32 :=
  k1_pay3 (scr1 V c t.val t.isLt) (iblk1 V c 3 t) (iblk1 V c 4 t) (iblk1 V c 2 t) (iblk1 V c 6 t) (iblk1 V c 5 t)

def PhiS1 (c : Dev nD) : (n : ℕ) → n ≤ cfg1.N → sProp 𝕄
  | 0, _ => Pipeline.ΦA spec1 c
  | n + 1, hn => iprop((owns (c : Thread nD τ) scM1 fullShare (scr1 V c n hn) ∗ restBut1 c) ∗ (∃ r, prngReg c r))

theorem PhiS1_succ (c : Dev nD) (n : ℕ) (hn : n < cfg1.N) :
    PhiS1 V c (n + 1) hn = iprop((owns (c : Thread nD τ) scM1 fullShare (scr1 V c n hn) ∗ restBut1 c) ∗ (∃ r, prngReg c r)) := rfl
theorem PhiS1_pos (c : Dev nD) (n : ℕ) (h : n ≤ cfg1.N) (hz : n ≠ 0) :
    PhiS1 V c n h = iprop((owns (c : Thread nD τ) scM1 fullShare (scr1 V c (n - 1) (by omega)) ∗ restBut1 c) ∗ (∃ r, prngReg c r)) := by
  cases n with
  | zero => exact absurd rfl hz
  | succ n => rfl

-- At every point the invariant holds the accumulator at some contents.
theorem PhiS1_any (c : Dev nD) : ∀ (n : ℕ) (h : n ≤ cfg1.N), PhiS1 V c n h ⊢ Pipeline.ΦA spec1 c
  | 0, _ => .rfl
  | n + 1, h => by
    rw [PhiS1_succ, PhiA1_eq]
    iintro ⟨⟨HS, HR⟩, Hg⟩
    iframe HR Hg
    iexists _; iexact HS

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => outAt1 V c t
  Φ t := PhiS1 V c t.val (Nat.le_of_lt_succ t.isLt)
  q w := match w with
    | ⟨0, _⟩ => fullShare
    | ⟨1, _⟩ => shareL1
    | ⟨2, _⟩ => shareR1
    | ⟨3, _⟩ => fullShare
    | ⟨4, _⟩ => fullShare
    | ⟨5, _⟩ => fullShare
    | ⟨6, _⟩ => fullShare
    | ⟨7, _⟩ => fullShare
  owed _ := 0

theorem A_eq1 (c : Dev nD) (w : Fin cfg1.W) : (dat1 V c).A w = V c (Pipeline.arrRef spec1 w) := by
  dsimp only [dat1]
theorem q1 (c : Dev nD) : (dat1 V c).q 0 = fullShare ∧ (dat1 V c).q 1 = shareL1 ∧ (dat1 V c).q 2 = shareR1 ∧ (dat1 V c).q 3 = fullShare
    ∧ (dat1 V c).q 4 = fullShare ∧ (dat1 V c).q 5 = fullShare ∧ (dat1 V c).q 6 = fullShare := by
  dsimp only [dat1]; exact ⟨rfl, rfl, rfl, rfl, rfl, rfl, rfl⟩
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = outAt1 V c t := by dsimp only [dat1]
theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; rfl) t d).trans rfl
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; rfl) t d).trans rfl
theorem before1_2 (c : Dev nD) (t : Fin cfg1.N) (d) : (dat1 V c).before 2 t d = iblk1 V c 2 t :=
  ((dat1 V c).before_in_eq_fetched 2 rfl (fun _ => rfl) (fun _ _ _ => rfl) (fun t => by rw [after1_2]; rfl) t d).trans rfl
theorem before1_3 (c : Dev nD) (t : Fin cfg1.N) (d) : (dat1 V c).before 3 t d = iblk1 V c 3 t :=
  ((dat1 V c).before_in_eq_fetched 3 rfl (fun _ => rfl) (fun _ _ _ => rfl) (fun t => by rw [after1_3]; rfl) t d).trans rfl
theorem before1_4 (c : Dev nD) (t : Fin cfg1.N) (d) : (dat1 V c).before 4 t d = iblk1 V c 4 t :=
  ((dat1 V c).before_in_eq_fetched 4 rfl (fun _ => rfl) (fun _ _ _ => rfl) (fun t => by rw [after1_4]; rfl) t d).trans rfl
theorem before1_5 (c : Dev nD) (t : Fin cfg1.N) (d) : (dat1 V c).before 5 t d = iblk1 V c 5 t :=
  ((dat1 V c).before_in_eq_fetched 5 rfl (fun _ => rfl) (fun _ _ _ => rfl) (fun t => by rw [after1_5]; rfl) t d).trans rfl
theorem before1_6 (c : Dev nD) (t : Fin cfg1.N) (d) : (dat1 V c).before 6 t d = iblk1 V c 6 t :=
  ((dat1 V c).before_in_eq_fetched 6 rfl (fun _ => rfl) (fun _ _ _ => rfl) (fun t => by rw [after1_6]; rfl) t d).trans rfl

-- Window `w`'s buffer at point `t`, held at contents `X`.
abbrev held1 (c : Dev nD) (t : Fin cfg1.N) (w : Fin cfg1.W) (X : (cfg1.win w).block.Idx → Elt F (cfg1.win w).elt) : sProp 𝕄 :=
  owns (c : Thread nD τ) ((cfg1.win w).stage (cfg1.slots t w)) fullShare X

set_option maxHeartbeats 4800000 in
theorem sound_body1 (c : Dev nD) (t : Fin cfg1.N) :
    iprop((dat1 V c).Φ t.castSucc ∗ (dat1 V c).owesAt () t.castSucc
      ∗ (∃ d, held1 c t 0 ((dat1 V c).before 0 t d)) ∗ (∃ d, held1 c t 1 ((dat1 V c).before 1 t d))
      ∗ (∃ d, held1 c t 2 ((dat1 V c).before 2 t d)) ∗ (∃ d, held1 c t 3 ((dat1 V c).before 3 t d))
      ∗ (∃ d, held1 c t 4 ((dat1 V c).before 4 t d)) ∗ (∃ d, held1 c t 5 ((dat1 V c).before 5 t d))
      ∗ (∃ d, held1 c t 6 ((dat1 V c).before 6 t d)) ∗ (∃ d, held1 c t 7 ((dat1 V c).before 7 t d)))
    ⊢ wp frame (wpE (defs₀ (F := F)) Variants.none c none) Set.univ (bodyAt1 t) fun _ =>
      iprop((dat1 V c).Φ t.succ ∗ (dat1 V c).owesAt () t.succ
        ∗ (dat1 V c).leavesExact 0 t ∗ (dat1 V c).leavesExact 1 t ∗ (dat1 V c).leavesExact 2 t ∗ (dat1 V c).leavesExact 3 t
        ∗ (dat1 V c).leavesExact 4 t ∗ (dat1 V c).leavesExact 5 t ∗ (dat1 V c).leavesExact 6 t ∗ (dat1 V c).leavesExact 7 t) := by
  unfold bodyAt1
  simp only [before1_0, before1_1, before1_2, before1_3, before1_4, before1_5, before1_6]
  rw [show (dat1 V c).owesAt () t.succ = (dat1 V c).owesAt () t.castSucc from rfl,
    show (dat1 V c).Φ t.succ = PhiS1 V c (t.val + 1) t.isLt from rfl, PhiS1_succ, PhiS1_castSucc V c t,
    leavesExact_live (dat1 V c) 0 t (liveAt1 0 t (by decide)), after1_0, leavesExact_live (dat1 V c) 1 t (liveAt1 1 t (by decide)), after1_1,
    leavesExact_live (dat1 V c) 2 t (liveAt1 2 t (by decide)), after1_2, leavesExact_live (dat1 V c) 3 t (liveAt1 3 t (by decide)), after1_3,
    leavesExact_live (dat1 V c) 4 t (liveAt1 4 t (by decide)), after1_4, leavesExact_live (dat1 V c) 5 t (liveAt1 5 t (by decide)), after1_5,
    leavesExact_live (dat1 V c) 6 t (liveAt1 6 t (by decide)), after1_6]
  by_cases h1 : t.val % 4 = 3
  · have h0 : ¬t.val % 4 = 0 := by omega
    rw [leavesExact_live (dat1 V c) 7 t (liveAt1_7 t ((hcond1_1 t).mpr h1)), after1_7, PhiS1_pos V c _ _ fun h => h0 (by rw [h])]
    unfold outAt1; rw [scr1_step V c t h0]
    exact conv_step (fun _ => .rfl) fun d => sound1_C (fun h => h0 ((hcond1_0 t).mp h)) ((hcond1_1 t).mpr h1)
  · have hc1 : ¬cond1_1 (grid1.coords t) := fun h => h1 ((hcond1_1 t).mp h)
    rw [Dat.leavesExact_idle (dat1 V c) 7 t (idleAt1_7 t hc1) (noFlush1_7 t hc1)]
    by_cases h0 : t.val % 4 = 0
    · rw [scr1_reset V c t h0]
      refine .trans (sep_mono ((PhiS1_any V c _ _).trans (PhiA1_eq c).le) .rfl) ?_
      exact conv_step (fun d => BIClass.exists_intro d) fun d => sound1_A ((hcond1_0 t).mpr h0) hc1
    · rw [scr1_step V c t h0, PhiS1_pos V c _ _ fun h => h0 (by rw [h])]
      exact conv_step (fun d => BIClass.exists_intro d) fun d => sound1_B (fun h => h0 ((hcond1_0 t).mp h)) hc1

theorem body_obligation1 (c : Dev nD) : BodyObligation (dat1 (F := F) V c) (defs₀ (F := F)) Variants.none () Set.univ := fun t => by
  rw [bigSep_W1, bigSep_W1]
  exact sound_body1 V c t

theorem hin1 (c : Dev nD) : Pipeline.ΦA spec1 c ⊢ (dat1 V c).Φ 0 := by
  rw [show (dat1 V c).Φ 0 = Pipeline.ΦA spec1 c from rfl]
  try exact .rfl

theorem hout1 (c : Dev nD) : (dat1 V c).Φ (Fin.last cfg1.N) ⊢ Pipeline.ΦA spec1 c :=
  PhiS1_any V c (Fin.last cfg1.N).val (Nat.le_of_lt_succ (Fin.last cfg1.N).isLt)

end Region

end Cert.KernelIdeal.Hand

end
-- ==== Proof.KI.Reg2.lean ====
import proofs.«139954_j43997644980465_1_alg».proof.Proof.Gen.KernelIdeal.Launch
import proofs.«139954_j43997644980465_1_alg».proof.Proof.Gen.KernelIdeal.Skeleton
import proofs.«139954_j43997644980465_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«139954_j43997644980465_1_alg».proof.Proof.LibWholeStore
import proofs.«139954_j43997644980465_1_alg».proof.Proof.LibConvRegion

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.ConvRegion

variable {F : FTy → Type} [FloatOps F]

local notation "𝕄" => MT nD τ sig Unit (Elt F) ℕ (UR sig nD τ) ℕ

abbrev SW2 : Shape := S128x64
abbrev SB2 : Shape := S1x64
abbrev SOut2 : Shape := S1024x64

abbrev shareL2 : PosShare TreeShare := fullShare.left
abbrev shareR2 : PosShare TreeShare := fullShare.right

abbrev cond2_0 (i : grid2.Coords) : Prop := (Scalar.cmpi .ne (Scalar.extui (Scalar.cmpi .eq (BitVec.ofNat 32 (i 1).val) 0#32)) 0#32) = 1#1

abbrev cond2_1 (i : grid2.Coords) : Prop := k2_cond2 i = 1#1

theorem hcond2_0 : ∀ t : Fin cfg2.N, cond2_0 (grid2.coords t) ↔ t.val % 4 = 0 :=
  (by decide +kernel : ∀ t : Fin grid2.N, cond2_0 (grid2.coords t) ↔ t.val % 4 = 0)
theorem hcond2_1 : ∀ t : Fin cfg2.N, cond2_1 (grid2.coords t) ↔ t.val % 4 = 3 :=
  (by decide +kernel : ∀ t : Fin grid2.N, cond2_1 (grid2.coords t) ↔ t.val % 4 = 3)

theorem liveAt2 : ∀ (w : Fin 8) (t : Fin cfg2.N), w ≠ 7 → cfg2.idle w (grid2.coords t) = false := by decide +kernel
theorem idleAt2_7 : ∀ t : Fin cfg2.N, ¬cond2_1 (grid2.coords t) → cfg2.idle 7 (grid2.coords t) = true := by decide +kernel
theorem noFlush2_7 : ∀ t : Fin cfg2.N, ¬cond2_1 (grid2.coords t) → (cfg2.win 7).flush t = false := by decide +kernel
theorem liveAt2_7 : ∀ t : Fin cfg2.N, cond2_1 (grid2.coords t) → cfg2.idle 7 (grid2.coords t) = false := by decide +kernel

section Run

variable (c : Dev nD) (E : Set ℕ) (i : grid2.Coords)
  (arg2 : Memref sig .tc .vmem S1024x1024 .f32) (harg2 : arg2.IsWhole) (arg3 : Memref sig .tc .vmem S1024x128 .f32) (harg3 : arg3.IsWhole)
  (arg4 : Memref sig .tc .vmem S1024x128 .f32) (harg4 : arg4.IsWhole) (arg5 : Memref sig .tc .vmem S1024x1 .f32) (harg5 : arg5.IsWhole)
  (arg6 : Memref sig .tc .vmem SW2 .f32) (harg6 : arg6.IsWhole) (arg7 : Memref sig .tc .vmem SB2 .f32) (harg7 : arg7.IsWhole)
  (arg8 : Memref sig .tc .vmem SW2 .f32) (harg8 : arg8.IsWhole) (arg9 : Memref sig .tc .vmem SOut2 .f32) (harg9 : arg9.IsWhole)
  (arg10 : Memref sig .tc .vmem S1024x128 .f32) (harg10 : arg10.IsWhole)
  (x0 : Vec F S1024x1024 .f32) (x1 x2 : Vec F S1024x128 .f32) (x3 : Vec F S1024x1 .f32) (x4 : Vec F SW2 .f32) (x5 : Vec F SB2 .f32) (x6 : Vec F SW2 .f32)

abbrev ins2 : sProp 𝕄 :=
  iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6)

-- The kernel body taken from `P` to `Q`, its seven inputs held and handed back.
abbrev Run2 (P Q : sProp 𝕄) : Prop := ∀ K : PUnit → sProp 𝕄,
  iprop(ins2 c arg2 arg3 arg4 arg5 arg6 arg7 arg8 x0 x1 x2 x3 x4 x5 x6 ∗ P ∗ ((ins2 c arg2 arg3 arg4 arg5 arg6 arg7 arg8 x0 x1 x2 x3 x4 x5 x6 ∗ Q) -∗ K ⟨⟩))
    ⊢ wp frame (wpE (defs₀ (F := F)) Variants.none c none) E (cc2__sage_kernel i arg2 harg2 arg3 harg3 arg4 harg4 arg5 harg5 arg6 harg6 arg7 harg7 arg8 harg8 arg9 harg9 arg10 harg10) K

variable {c E i arg2 harg2 arg3 harg3 arg4 harg4 arg5 harg5 arg6 harg6 arg7 harg7 arg8 harg8 arg9 harg9 arg10 harg10 x0 x1 x2 x3 x4 x5 x6}

set_option maxHeartbeats 2000000 in
theorem sound2_A (hc0 : cond2_0 i) (hc1 : ¬cond2_1 i) {xo : Vec F SOut2 .f32} :
    Run2 c E i arg2 harg2 arg3 harg3 arg4 harg4 arg5 harg5 arg6 harg6 arg7 harg7 arg8 harg8 arg9 harg9 arg10 harg10 x0 x1 x2 x3 x4 x5 x6
      iprop(owns (c : Thread nD τ) arg9 fullShare xo ∗ (∃ d, owns (c : Thread nD τ) arg10 fullShare d))
      iprop(owns (c : Thread nD τ) arg9 fullShare xo ∗ owns (c : Thread nD τ) arg10 fullShare (k2_pay2 x0 x1 k2_pay1)) := by
  intro K
  simp only [cc2__sage_kernel_eq_skeleton]; unfold cc2__sage_kernel_skel
  unfold ins2 owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩⟩, ⟨⟨%f7, %hf7, H7⟩, ⟨%d8, %f8, -, H8⟩⟩, Hk⟩
  subst hf0; subst hf1; subst hf2; subst hf3; subst hf4; subst hf5; subst hf6; subst hf7
  sl_exec (disch := first | exact hc0 | exact hc1)
  sl_step
  iapply Hk
  isplitl [H0 H1 H2 H3 H4 H5 H6]
  · isplitl [H0]
    · iexists _; isplitr; · ipureintro; rfl
      iexact H0
    isplitl [H1]
    · iexists _; isplitr; · ipureintro; rfl
      iexact H1
    isplitl [H2]
    · iexists _; isplitr; · ipureintro; rfl
      iexact H2
    isplitl [H3]
    · iexists _; isplitr; · ipureintro; rfl
      iexact H3
    isplitl [H4]
    · iexists _; isplitr; · ipureintro; rfl
      iexact H4
    isplitl [H5]
    · iexists _; isplitr; · ipureintro; rfl
      iexact H5
    iexists _; isplitr; · ipureintro; rfl
    iexact H6
  isplitl [H7]
  · iexists _; isplitr; · ipureintro; rfl
    iexact H7
  iexists _; isplitr
  swap; · iexact H8
  ipureintro
  sl_unfold_words
  rw [View.read_writes_cons_unit_zero _ _ hz2]
  simp only [View.readAt_eq_ld, View.ld_unit_zero (S := S1024x1024) hz2, View.ld_unit_zero (S := S1024x128) hz2, View.readCov_unit_zero (S := S1024x128) _ hz2]

set_option maxHeartbeats 2000000 in
theorem sound2_B (hc0 : ¬cond2_0 i) (hc1 : ¬cond2_1 i) {xo : Vec F SOut2 .f32} {s : Vec F S1024x128 .f32} :
    Run2 c E i arg2 harg2 arg3 harg3 arg4 harg4 arg5 harg5 arg6 harg6 arg7 harg7 arg8 harg8 arg9 harg9 arg10 harg10 x0 x1 x2 x3 x4 x5 x6
      iprop(owns (c : Thread nD τ) arg9 fullShare xo ∗ owns (c : Thread nD τ) arg10 fullShare s)
      iprop(owns (c : Thread nD τ) arg9 fullShare xo ∗ owns (c : Thread nD τ) arg10 fullShare (k2_pay2 x0 x1 s)) := by
  intro K
  simp only [cc2__sage_kernel_eq_skeleton]; unfold cc2__sage_kernel_skel
  unfold ins2 owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩⟩, ⟨⟨%f7, %hf7, H7⟩, ⟨%f8, %hf8, H8⟩⟩, Hk⟩
  subst hf0; subst hf1; subst hf2; subst hf3; subst hf4; subst hf5; subst hf6; subst hf7; subst hf8
  sl_exec (disch := first | exact hc0 | exact hc1)
  sl_step
  iapply Hk
  isplitl [H0 H1 H2 H3 H4 H5 H6]
  · isplitl [H0]
    · iexists _; isplitr; · ipureintro; rfl
      iexact H0
    isplitl [H1]
    · iexists _; isplitr; · ipureintro; rfl
      iexact H1
    isplitl [H2]
    · iexists _; isplitr; · ipureintro; rfl
      iexact H2
    isplitl [H3]
    · iexists _; isplitr; · ipureintro; rfl
      iexact H3
    isplitl [H4]
    · iexists _; isplitr; · ipureintro; rfl
      iexact H4
    isplitl [H5]
    · iexists _; isplitr; · ipureintro; rfl
      iexact H5
    iexists _; isplitr; · ipureintro; rfl
    iexact H6
  isplitl [H7]
  · iexists _; isplitr; · ipureintro; rfl
    iexact H7
  iexists _; isplitr
  swap; · iexact H8
  ipureintro
  sl_unfold_words
  rw [View.read_writes_cons_unit_zero _ _ hz2]
  simp only [View.readAt_eq_ld, View.ld_unit_zero (S := S1024x1024) hz2, View.ld_unit_zero (S := S1024x128) hz2]

set_option maxHeartbeats 2000000 in
theorem sound2_C (hc0 : ¬cond2_0 i) (hc1 : cond2_1 i) {xo : Vec F SOut2 .f32} {s : Vec F S1024x128 .f32} :
    Run2 c E i arg2 harg2 arg3 harg3 arg4 harg4 arg5 harg5 arg6 harg6 arg7 harg7 arg8 harg8 arg9 harg9 arg10 harg10 x0 x1 x2 x3 x4 x5 x6
      iprop(owns (c : Thread nD τ) arg9 fullShare xo ∗ owns (c : Thread nD τ) arg10 fullShare s)
      iprop(owns (c : Thread nD τ) arg9 fullShare (k2_pay3 (k2_pay2 x0 x1 s) x3 x4 x2 x6 x5) ∗ owns (c : Thread nD τ) arg10 fullShare (k2_pay2 x0 x1 s)) := by
  intro K
  simp only [cc2__sage_kernel_eq_skeleton]; unfold cc2__sage_kernel_skel
  unfold ins2 owns
  iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩⟩, ⟨⟨%f7, -, H7⟩, ⟨%f8, %hf8, H8⟩⟩, Hk⟩
  subst hf0; subst hf1; subst hf2; subst hf3; subst hf4; subst hf5; subst hf6; subst hf8
  sl_exec (disch := first | exact hc0 | exact hc1)
  sl_step
  iapply Hk
  isplitl [H0 H1 H2 H3 H4 H5 H6]
  · isplitl [H0]
    · iexists _; isplitr; · ipureintro; rfl
      iexact H0
    isplitl [H1]
    · iexists _; isplitr; · ipureintro; rfl
      iexact H1
    isplitl [H2]
    · iexists _; isplitr; · ipureintro; rfl
      iexact H2
    isplitl [H3]
    · iexists _; isplitr; · ipureintro; rfl
      iexact H3
    isplitl [H4]
    · iexists _; isplitr; · ipureintro; rfl
      iexact H4
    isplitl [H5]
    · iexists _; isplitr; · ipureintro; rfl
      iexact H5
    iexists _; isplitr; · ipureintro; rfl
    iexact H6
  isplitl [H7]
  · iexists _; isplitr
    swap; · iexact H7
    ipureintro
    sl_unfold_words
    rw [View.read_writes_unit_zero _ _ hz2]
    simp only [View.readAt_eq_ld, View.ld_unit_zero (S := S1024x1024) hz2, View.ld_unit_zero (S := S1024x128) hz2, View.ld_unit_zero (S := S1024x1) hz2, View.ld_unit_zero (S := S128x64) hz2, View.ld_unit_zero (S := S1x64) hz2, View.readCov_unit_zero (S := S1024x128) _ hz2]
  iexists _; isplitr
  swap; · iexact H8
  ipureintro
  sl_unfold_words
  rw [View.read_writes_cons_unit_zero _ _ hz2]
  simp only [View.readAt_eq_ld, View.ld_unit_zero (S := S1024x1024) hz2, View.ld_unit_zero (S := S1024x128) hz2]

end Run

abbrev scM2 : Memref sig .tc .vmem S1024x128 .f32 := Memref.whole cc2_scratch0

abbrev restBut2 (c : Dev nD) : sProp 𝕄 :=
  Pipeline.scopedRestBut (Ix := Unit) (Name := ℕ) (U := UR sig nD τ) (Lvl := ℕ) (Val := Elt F) spec2 c [cc2_scratch0]

theorem PhiA2_eq (c : Dev nD) :
    (Pipeline.ΦA spec2 c : sProp 𝕄)
      = iprop((iprop(∃ d, owns (c : Thread nD τ) scM2 fullShare d) ∗ restBut2 c) ∗ (∃ r, prngReg c r)) := by
  unfold Pipeline.ΦA; rw [scopedRest2_split]; simp only [scM2, owns_whole]; try rfl

section Region

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

def scr2 (c : Dev nD) : (n : ℕ) → n < cfg2.N → Vec F S1024x128 .f32
  | 0, hn => k2_pay2 (iblk2 V c 0 ⟨0, hn⟩) (iblk2 V c 1 ⟨0, hn⟩) k2_pay1
  | n + 1, hn =>
    if (n + 1) % 4 = 0 then k2_pay2 (iblk2 V c 0 ⟨n + 1, hn⟩) (iblk2 V c 1 ⟨n + 1, hn⟩) k2_pay1
    else k2_pay2 (iblk2 V c 0 ⟨n + 1, hn⟩) (iblk2 V c 1 ⟨n + 1, hn⟩) (scr2 c n (Nat.lt_of_succ_lt hn))

theorem scr2_reset (c : Dev nD) (t : Fin cfg2.N) (h0 : t.val % 4 = 0) :
    scr2 V c t.val t.isLt = k2_pay2 (iblk2 V c 0 t) (iblk2 V c 1 t) k2_pay1 := by
  obtain ⟨n, hn⟩ := t
  cases n with
  | zero => rfl
  | succ n => exact if_pos h0

theorem scr2_step (c : Dev nD) (t : Fin cfg2.N) (h0 : ¬t.val % 4 = 0) :
    scr2 V c t.val t.isLt = k2_pay2 (iblk2 V c 0 t) (iblk2 V c 1 t) (scr2 V c (t.val - 1) (Nat.lt_of_le_of_lt (Nat.sub_le _ _) t.isLt)) := by
  obtain ⟨n, hn⟩ := t
  cases n with
  | zero => exact absurd (Nat.zero_mod _) h0
  | succ n => exact if_neg h0

def outAt2 (c : Dev nD) (t : Fin cfg2.N) : Vec F SOut2 .f32 :=
  k2_pay3 (scr2 V c t.val t.isLt) (iblk2 V c 3 t) (iblk2 V c 4 t) (iblk2 V c 2 t) (iblk2 V c 6 t) (iblk2 V c 5 t)

def PhiS2 (c : Dev nD) : (n : ℕ) → n ≤ cfg2.N → sProp 𝕄
  | 0, _ => Pipeline.ΦA spec2 c
  | n + 1, hn => iprop((owns (c : Thread nD τ) scM2 fullShare (scr2 V c n hn) ∗ restBut2 c) ∗ (∃ r, prngReg c r))

theorem PhiS2_succ (c : Dev nD) (n : ℕ) (hn : n < cfg2.N) :
    PhiS2 V c (n + 1) hn = iprop((owns (c : Thread nD τ) scM2 fullShare (scr2 V c n hn) ∗ restBut2 c) ∗ (∃ r, prngReg c r)) := rfl
theorem PhiS2_pos (c : Dev nD) (n : ℕ) (h : n ≤ cfg2.N) (hz : n ≠ 0) :
    PhiS2 V c n h = iprop((owns (c : Thread nD τ) scM2 fullShare (scr2 V c (n - 1) (by omega)) ∗ restBut2 c) ∗ (∃ r, prngReg c r)) := by
  cases n with
  | zero => exact absurd rfl hz
  | succ n => rfl

-- At every point the invariant holds the accumulator at some contents.
theorem PhiS2_any (c : Dev nD) : ∀ (n : ℕ) (h : n ≤ cfg2.N), PhiS2 V c n h ⊢ Pipeline.ΦA spec2 c
  | 0, _ => .rfl
  | n + 1, h => by
    rw [PhiS2_succ, PhiA2_eq]
    iintro ⟨⟨HS, HR⟩, Hg⟩
    iframe HR Hg
    iexists _; iexact HS

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => iblk2 V c 5 t
    | ⟨6, _⟩ => iblk2 V c 6 t
    | ⟨7, _⟩ => outAt2 V c t
  Φ t := PhiS2 V c t.val (Nat.le_of_lt_succ t.isLt)
  q w := match w with
    | ⟨0, _⟩ => fullShare
    | ⟨1, _⟩ => shareL2
    | ⟨2, _⟩ => shareR2
    | ⟨3, _⟩ => fullShare
    | ⟨4, _⟩ => fullShare
    | ⟨5, _⟩ => fullShare
    | ⟨6, _⟩ => fullShare
    | ⟨7, _⟩ => fullShare
  owed _ := 0

theorem A_eq2 (c : Dev nD) (w : Fin cfg2.W) : (dat2 V c).A w = V c (Pipeline.arrRef spec2 w) := by
  dsimp only [dat2]
theorem q2 (c : Dev nD) : (dat2 V c).q 0 = fullShare ∧ (dat2 V c).q 1 = shareL2 ∧ (dat2 V c).q 2 = shareR2 ∧ (dat2 V c).q 3 = fullShare
    ∧ (dat2 V c).q 4 = fullShare ∧ (dat2 V c).q 5 = fullShare ∧ (dat2 V c).q 6 = fullShare := by
  dsimp only [dat2]; exact ⟨rfl, rfl, rfl, rfl, rfl, rfl, rfl⟩
theorem PhiS2_castSucc (c : Dev nD) (t : Fin cfg2.N) :
    (dat2 V c).Φ t.castSucc = PhiS2 V c t.val (Nat.le_of_lt t.isLt) := by
  dsimp only [dat2]; simp only [Fin.coe_castSucc]
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = iblk2 V c 5 t := by dsimp only [dat2]
theorem after2_6 (c : Dev nD) (t : Fin cfg2.N) : (dat2 V c).after 6 t = iblk2 V c 6 t := by dsimp only [dat2]
theorem after2_7 (c : Dev nD) (t : Fin cfg2.N) : (dat2 V c).after 7 t = outAt2 V c t := by dsimp only [dat2]
theorem before2_0 (c : Dev nD) (t : Fin cfg2.N) (d) : (dat2 V c).before 0 t d = iblk2 V c 0 t :=
  ((dat2 V c).before_in_eq_fetched 0 rfl (fun _ => rfl) (fun _ _ _ => rfl) (fun t => by rw [after2_0]; rfl) t d).trans rfl
theorem before2_1 (c : Dev nD) (t : Fin cfg2.N) (d) : (dat2 V c).before 1 t d = iblk2 V c 1 t :=
  ((dat2 V c).before_in_eq_fetched 1 rfl (fun _ => rfl) (fun _ _ _ => rfl) (fun t => by rw [after2_1]; rfl) t d).trans rfl
theorem before2_2 (c : Dev nD) (t : Fin cfg2.N) (d) : (dat2 V c).before 2 t d = iblk2 V c 2 t :=
  ((dat2 V c).before_in_eq_fetched 2 rfl (fun _ => rfl) (fun _ _ _ => rfl) (fun t => by rw [after2_2]; rfl) t d).trans rfl
theorem before2_3 (c : Dev nD) (t : Fin cfg2.N) (d) : (dat2 V c).before 3 t d = iblk2 V c 3 t :=
  ((dat2 V c).before_in_eq_fetched 3 rfl (fun _ => rfl) (fun _ _ _ => rfl) (fun t => by rw [after2_3]; rfl) t d).trans rfl
theorem before2_4 (c : Dev nD) (t : Fin cfg2.N) (d) : (dat2 V c).before 4 t d = iblk2 V c 4 t :=
  ((dat2 V c).before_in_eq_fetched 4 rfl (fun _ => rfl) (fun _ _ _ => rfl) (fun t => by rw [after2_4]; rfl) t d).trans rfl
theorem before2_5 (c : Dev nD) (t : Fin cfg2.N) (d) : (dat2 V c).before 5 t d = iblk2 V c 5 t :=
  ((dat2 V c).before_in_eq_fetched 5 rfl (fun _ => rfl) (fun _ _ _ => rfl) (fun t => by rw [after2_5]; rfl) t d).trans rfl
theorem before2_6 (c : Dev nD) (t : Fin cfg2.N) (d) : (dat2 V c).before 6 t d = iblk2 V c 6 t :=
  ((dat2 V c).before_in_eq_fetched 6 rfl (fun _ => rfl) (fun _ _ _ => rfl) (fun t => by rw [after2_6]; rfl) t d).trans rfl

-- Window `w`'s buffer at point `t`, held at contents `X`.
abbrev held2 (c : Dev nD) (t : Fin cfg2.N) (w : Fin cfg2.W) (X : (cfg2.win w).block.Idx → Elt F (cfg2.win w).elt) : sProp 𝕄 :=
  owns (c : Thread nD τ) ((cfg2.win w).stage (cfg2.slots t w)) fullShare X

set_option maxHeartbeats 4800000 in
theorem sound_body2 (c : Dev nD) (t : Fin cfg2.N) :
    iprop((dat2 V c).Φ t.castSucc ∗ (dat2 V c).owesAt () t.castSucc
      ∗ (∃ d, held2 c t 0 ((dat2 V c).before 0 t d)) ∗ (∃ d, held2 c t 1 ((dat2 V c).before 1 t d))
      ∗ (∃ d, held2 c t 2 ((dat2 V c).before 2 t d)) ∗ (∃ d, held2 c t 3 ((dat2 V c).before 3 t d))
      ∗ (∃ d, held2 c t 4 ((dat2 V c).before 4 t d)) ∗ (∃ d, held2 c t 5 ((dat2 V c).before 5 t d))
      ∗ (∃ d, held2 c t 6 ((dat2 V c).before 6 t d)) ∗ (∃ d, held2 c t 7 ((dat2 V c).before 7 t d)))
    ⊢ wp frame (wpE (defs₀ (F := F)) Variants.none c none) Set.univ (bodyAt2 t) fun _ =>
      iprop((dat2 V c).Φ t.succ ∗ (dat2 V c).owesAt () t.succ
        ∗ (dat2 V c).leavesExact 0 t ∗ (dat2 V c).leavesExact 1 t ∗ (dat2 V c).leavesExact 2 t ∗ (dat2 V c).leavesExact 3 t
        ∗ (dat2 V c).leavesExact 4 t ∗ (dat2 V c).leavesExact 5 t ∗ (dat2 V c).leavesExact 6 t ∗ (dat2 V c).leavesExact 7 t) := by
  unfold bodyAt2
  simp only [before2_0, before2_1, before2_2, before2_3, before2_4, before2_5, before2_6]
  rw [show (dat2 V c).owesAt () t.succ = (dat2 V c).owesAt () t.castSucc from rfl,
    show (dat2 V c).Φ t.succ = PhiS2 V c (t.val + 1) t.isLt from rfl, PhiS2_succ, PhiS2_castSucc V c t,
    leavesExact_live (dat2 V c) 0 t (liveAt2 0 t (by decide)), after2_0, leavesExact_live (dat2 V c) 1 t (liveAt2 1 t (by decide)), after2_1,
    leavesExact_live (dat2 V c) 2 t (liveAt2 2 t (by decide)), after2_2, leavesExact_live (dat2 V c) 3 t (liveAt2 3 t (by decide)), after2_3,
    leavesExact_live (dat2 V c) 4 t (liveAt2 4 t (by decide)), after2_4, leavesExact_live (dat2 V c) 5 t (liveAt2 5 t (by decide)), after2_5,
    leavesExact_live (dat2 V c) 6 t (liveAt2 6 t (by decide)), after2_6]
  by_cases h1 : t.val % 4 = 3
  · have h0 : ¬t.val % 4 = 0 := by omega
    rw [leavesExact_live (dat2 V c) 7 t (liveAt2_7 t ((hcond2_1 t).mpr h1)), after2_7, PhiS2_pos V c _ _ fun h => h0 (by rw [h])]
    unfold outAt2; rw [scr2_step V c t h0]
    exact conv_step (fun _ => .rfl) fun d => sound2_C (fun h => h0 ((hcond2_0 t).mp h)) ((hcond2_1 t).mpr h1)
  · have hc1 : ¬cond2_1 (grid2.coords t) := fun h => h1 ((hcond2_1 t).mp h)
    rw [Dat.leavesExact_idle (dat2 V c) 7 t (idleAt2_7 t hc1) (noFlush2_7 t hc1)]
    by_cases h0 : t.val % 4 = 0
    · rw [scr2_reset V c t h0]
      refine .trans (sep_mono ((PhiS2_any V c _ _).trans (PhiA2_eq c).le) .rfl) ?_
      exact conv_step (fun d => BIClass.exists_intro d) fun d => sound2_A ((hcond2_0 t).mpr h0) hc1
    · rw [scr2_step V c t h0, PhiS2_pos V c _ _ fun h => h0 (by rw [h])]
      exact conv_step (fun d => BIClass.exists_intro d) fun d => sound2_B (fun h => h0 ((hcond2_0 t).mp h)) hc1

theorem body_obligation2 (c : Dev nD) : BodyObligation (dat2 (F := F) V c) (defs₀ (F := F)) Variants.none () Set.univ := fun t => by
  rw [bigSep_W2, bigSep_W2]
  exact sound_body2 V c t

theorem hin2 (c : Dev nD) : Pipeline.ΦA spec2 c ⊢ (dat2 V c).Φ 0 := by
  rw [show (dat2 V c).Φ 0 = Pipeline.ΦA spec2 c from rfl]
  try exact .rfl

theorem hout2 (c : Dev nD) : (dat2 V c).Φ (Fin.last cfg2.N) ⊢ Pipeline.ΦA spec2 c :=
  PhiS2_any V c (Fin.last cfg2.N).val (Nat.le_of_lt_succ (Fin.last cfg2.N).isLt)

end Region

end Cert.KernelIdeal.Hand

end
-- ==== Proof.KI.Reg3.lean ====
import proofs.«139954_j43997644980465_1_alg».proof.Proof.Gen.KernelIdeal.Launch
import proofs.«139954_j43997644980465_1_alg».proof.Proof.Gen.KernelIdeal.Skeleton
import proofs.«139954_j43997644980465_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import proofs.«139954_j43997644980465_1_alg».proof.Proof.LibWholeStore
import proofs.«139954_j43997644980465_1_alg».proof.Proof.LibAccRegion
set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

theorem hz2_3 : (![0, 0] : Fin 2 → Nat) = fun _ => 0 := funext fun a => by fin_cases a <;> rfl

abbrev epi3 (s : Vec F S1024x1024 .f32) : Vec F S1024x1024 .f32 := s

abbrev shareL3 : PosShare TreeShare := fullShare
abbrev shareR3 : PosShare TreeShare := fullShare

abbrev cond3_0 (i : grid3.Coords) : Prop := (Scalar.cmpi .ne (Scalar.extui (Scalar.cmpi .eq (BitVec.ofNat 32 (i 2).val) 0#32)) 0#32) = 1#1

abbrev cond3_1 (i : grid3.Coords) : Prop := k3_cond2 i = 1#1

theorem hcond3_0 : ∀ t : Fin cfg3.N, cond3_0 (grid3.coords t) ↔ t.val % 4 = 0 :=
  (by decide +kernel : ∀ t : Fin grid3.N, cond3_0 (grid3.coords t) ↔ t.val % 4 = 0)
theorem hcond3_1 : ∀ t : Fin cfg3.N, cond3_1 (grid3.coords t) ↔ t.val % 4 = 3 :=
  (by decide +kernel : ∀ t : Fin grid3.N, cond3_1 (grid3.coords t) ↔ t.val % 4 = 3)

theorem liveAt3_0 : ∀ t : Fin cfg3.N, cfg3.idle 0 (grid3.coords t) = false := by decide +kernel
theorem liveAt3_1 : ∀ t : Fin cfg3.N, cfg3.idle 1 (grid3.coords t) = false := by decide +kernel
theorem idleAt3_2 : ∀ t : Fin cfg3.N, ¬cond3_1 (grid3.coords t) → cfg3.idle 2 (grid3.coords t) = true := by decide +kernel
theorem noFlush3_2 : ∀ t : Fin cfg3.N, ¬cond3_1 (grid3.coords t) → (cfg3.win 2).flush t = false := by decide +kernel
theorem liveAt3_2 : ∀ t : Fin cfg3.N, cond3_1 (grid3.coords t) → cfg3.idle 2 (grid3.coords t) = false := by decide +kernel

section Run

variable (c : Dev nD) (E : Set ℕ) (i : grid3.Coords) (arg3 arg4 : Memref sig .tc .vmem S1024x1024 .bf16) (arg5 arg6 : Memref sig .tc .vmem S1024x1024 .f32)
  (harg3 : arg3.IsWhole) (harg4 : arg4.IsWhole) (harg5 : arg5.IsWhole) (harg6 : arg6.IsWhole) (x0 x1 : Vec F S1024x1024 .bf16)

set_option maxHeartbeats 1000000 in
-- The body at one point: the accumulator takes one step, from the zero block at a reset point and from what it
-- held otherwise; at a last point the output block is written from it, else it is left as found.
theorem sound3 (h01 : cond3_1 i → ¬cond3_0 i) (xi s : Vec F S1024x1024 .f32) :
    AccRegion.Triple (M := 𝕄) (wp frame (wpE (defs₀ (F := F)) Variants.none c none) E (cc3__final_kernel i arg3 harg3 arg4 harg4 arg5 harg5 arg6 harg6))
      iprop(owns (c : Thread nD τ) arg3 fullShare x0 ∗ owns (c : Thread nD τ) arg4 fullShare x1 ∗ owns (c : Thread nD τ) arg5 fullShare xi ∗ owns (c : Thread nD τ) arg6 fullShare s)
      iprop(owns (c : Thread nD τ) arg3 fullShare x0 ∗ owns (c : Thread nD τ) arg4 fullShare x1
        ∗ owns (c : Thread nD τ) arg5 fullShare (if cond3_1 i then epi3 (k3_pay2 (if cond3_0 i then k3_pay1 else s) x0 x1) else xi)
        ∗ owns (c : Thread nD τ) arg6 fullShare (k3_pay2 (if cond3_0 i then k3_pay1 else s) x0 x1)) := fun K => by
  by_cases hc1 : cond3_1 i <;> by_cases hc0 : cond3_0 i
  on_goal 1 => exact absurd hc0 (h01 hc1)
  all_goals
    first | rw [if_pos hc1] | rw [if_neg hc1]
    first | rw [if_pos hc0] | rw [if_neg hc0]
    simp only [cc3__final_kernel_eq_skeleton]; unfold cc3__final_kernel_skel
    unfold owns
    iintro ⟨⟨⟨%f0, %hf0, H0⟩, ⟨%f1, %hf1, H1⟩, ⟨%f2, %hf2, H2⟩, ⟨%f3, %hf3, H3⟩⟩, Hk⟩
    subst hf0; subst hf1; subst hf2; subst hf3
    sl_exec (disch := first | exact hc0 | exact hc1)
    sl_step
    iapply Hk
    isplitl [H0]
    · iexists _; isplitr; · ipureintro; rfl
      iexact H0
    isplitl [H1]
    · iexists _; isplitr; · ipureintro; rfl
      iexact H1
    isplitl [H2]
    · iexists _; isplitr
      swap; · iexact H2
      ipureintro
      first
      | rfl
      | sl_unfold_words
        rw [View.read_writes_cons_unit_zero _ _ hz2_3]
        simp only [View.readAt_eq_ld, View.ld_unit_zero (S := S1024x1024) hz2_3, View.readCov_unit_zero (S := S1024x1024) _ hz2_3]
    iexists _; isplitr
    swap; · iexact H3
    ipureintro
    sl_unfold_words
    rw [View.read_writes_cons_unit_zero _ _ hz2_3]
    simp only [View.readAt_eq_ld, View.ld_unit_zero (S := S1024x1024) hz2_3, View.readCov_unit_zero (S := S1024x1024) _ hz2_3]

end Run

abbrev ms3_0 (t : Fin cfg3.N) : Memref sig .tc .vmem S1024x1024 .bf16 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S1024x1024 .bf16 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S1024x1024 .f32 := win3_2.stage (cfg3.slots t 2)
abbrev hs3_2 (t : Fin cfg3.N) : (ms3_2 t).IsWhole := hstage3_2 ((cfg3.slots t 2).cast nbuf3_2)

abbrev scM3 : Memref sig .tc .vmem S1024x1024 .f32 := Memref.whole cc3_scratch0

abbrev rest3 (c : Dev nD) : sProp 𝕄 :=
  iprop(Pipeline.scopedRestBut (Ix := Unit) (Name := ℕ) (U := UR sig nD τ) (Lvl := ℕ) (Val := Elt F) spec3 c [cc3_scratch0] ∗ ∃ r, prngReg c r)

-- The entry resources are the accumulator at some contents beside the rest.
theorem PhiA3_eq (c : Dev nD) :
    (Pipeline.ΦA spec3 c : sProp 𝕄) ⊣⊢ iprop((∃ d, owns (c : Thread nD τ) scM3 fullShare d) ∗ rest3 c) := by
  unfold Pipeline.ΦA; rw [scopedRest3_split]; simp only [scM3, owns_whole]; exact sep_assoc

section Region

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

def scr3 (c : Dev nD) : (n : ℕ) → n < cfg3.N → Vec F S1024x1024 .f32 :=
  AccRegion.accAt 4 k3_pay1 fun t s => k3_pay2 s (iblk3 V c 0 t) (iblk3 V c 1 t)

theorem scr3_reset (c : Dev nD) (t : Fin cfg3.N) (h0 : t.val % 4 = 0) :
    scr3 V c t.val t.isLt = k3_pay2 k3_pay1 (iblk3 V c 0 t) (iblk3 V c 1 t) :=
  AccRegion.accAt_reset 4 _ _ t h0

theorem scr3_step (c : Dev nD) (t : Fin cfg3.N) (h0 : ¬t.val % 4 = 0) :
    scr3 V c t.val t.isLt = k3_pay2 (scr3 V c (t.val - 1) (Nat.lt_of_le_of_lt (Nat.sub_le _ _) t.isLt)) (iblk3 V c 0 t) (iblk3 V c 1 t) :=
  AccRegion.accAt_step 4 _ _ t h0

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => epi3 (scr3 V c t.val t.isLt)
  Φ t := AccRegion.PhiAt (Pipeline.ΦA spec3 c) (rest3 c) (owns (c : Thread nD τ) scM3 fullShare) (scr3 V c) t.val (Nat.le_of_lt_succ t.isLt)
  q w := match w with
    | ⟨0, _⟩ => shareL3
    | ⟨1, _⟩ => shareR3
    | ⟨2, _⟩ => fullShare
  owed _ := 0

theorem A_eq3 (c : Dev nD) (w : Fin cfg3.W) : (dat3 V c).A w = V c (Pipeline.arrRef spec3 w) := by
  dsimp only [dat3]
theorem q3_0 (c : Dev nD) : (dat3 V c).q 0 = shareL3 := by dsimp only [dat3]
theorem q3_1 (c : Dev nD) : (dat3 V c).q 1 = shareR3 := by dsimp only [dat3]
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = epi3 (scr3 V c t.val t.isLt) := by dsimp only [dat3]

theorem before3_in (c : Dev nD) : (∀ t d, (dat3 V c).before 0 t d = iblk3 V c 0 t) ∧ ∀ t d, (dat3 V c).before 1 t d = iblk3 V c 1 t := by
  constructor <;> intro t d <;>
  exact ((dat3 V c).before_in_eq_fetched _ rfl (fun _ => rfl) (fun _ _ _ => rfl) (fun t => by dsimp only [dat3]; unfold Dat.blockOf iblk3; dsimp only [dat3]; try rfl) t d).trans
    (by unfold Dat.fetched Dat.blockOf iblk3; dsimp only [dat3]; try rfl)

set_option maxHeartbeats 400000 in
theorem body_obligation3 (c : Dev nD) : BodyObligation (dat3 (F := F) V c) (defs₀ (F := F)) Variants.none () Set.univ := fun t => by
  rw [bigSep_W3, bigSep_W3]
  refine AccRegion.step 4 _ _ (PhiA3_eq c).1 epi3 (wp frame (wpE (defs₀ (F := F)) Variants.none c none) Set.univ (bodyAt3 t)) t
    (cond3_0 (grid3.coords t)) (cond3_1 (grid3.coords t)) ((dat3 V c).before 2 t)
    (I0 := owns (c : Thread nD τ) (ms3_0 t) fullShare (iblk3 V c 0 t)) (I1 := owns (c : Thread nD τ) (ms3_1 t) fullShare (iblk3 V c 1 t))
    (O := owns (c : Thread nD τ) (ms3_2 t) fullShare) (hcond3_0 t) ?_ ?_ (fun h => ?_) (fun h => ?_)
    (sound3 c Set.univ (grid3.coords t) _ _ _ scM3 (hs3_0 t) (hs3_1 t) (hs3_2 t) (Memref.isWhole_whole _) _ _
      fun h h' => by rw [hcond3_0] at h'; rw [hcond3_1] at h; omega)
  · iintro ⟨%d, H⟩; rw [(before3_in V c).1]; iexact H
  · iintro ⟨%d, H⟩; rw [(before3_in V c).2]; iexact H
  · rw [idleAt3_2 t h, noFlush3_2 t h]
  · rw [liveAt3_2 t h]; exact .rfl

theorem hin3 (c : Dev nD) : Pipeline.ΦA spec3 c ⊢ (dat3 V c).Φ 0 := .rfl

theorem hout3 (c : Dev nD) : (dat3 V c).Φ (Fin.last cfg3.N) ⊢ Pipeline.ΦA spec3 c :=
  AccRegion.PhiAt_out (N := cfg3.N) (scr3 V c) (PhiA3_eq c).2 (by rw [show cfg3.N = 64 from N_3]; decide)

end Region

end Cert.KernelIdeal.Hand

end
-- ==== Proof.KI.Data.lean ====
import proofs.«139954_j43997644980465_1_alg».proof.Proof.Gen.KernelIdeal.Regions
import proofs.«139954_j43997644980465_1_alg».proof.Proof.KI.Reg0
import proofs.«139954_j43997644980465_1_alg».proof.Proof.KI.Reg1
import proofs.«139954_j43997644980465_1_alg».proof.Proof.KI.Reg2
import proofs.«139954_j43997644980465_1_alg».proof.Proof.KI.Reg3

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (outs : Outs (F := F))

abbrev Ve0 : (c : Dev nD) → (b : Ref sig .tc) → Buf (Elt F) ((c : Thread nD τ).loc b) := fun c b => V1 m c b
abbrev Ve1 : (c : Dev nD) → (b : Ref sig .tc) → Buf (Elt F) ((c : Thread nD τ).loc b) := fun c b => V3 m outs c b
abbrev Ve2 : (c : Dev nD) → (b : Ref sig .tc) → Buf (Elt F) ((c : Thread nD τ).loc b) := fun c b => V5 m outs c b
abbrev Ve3 : (c : Dev nD) → (b : Ref sig .tc) → Buf (Elt F) ((c : Thread nD τ).loc b) := fun c b => V9 m outs c b

def pdats : (p : Fin 4) → (c : Dev nD) → Dat τ (Elt F) Unit ℕ (UR sig nD τ) ℕ (cfgs p) c
  | ⟨0, _⟩ => fun c => dat0 (Ve0 m) c
  | ⟨1, _⟩ => fun c => dat1 (Ve1 m outs) c
  | ⟨2, _⟩ => fun c => dat2 (Ve2 m outs) c
  | ⟨3, _⟩ => fun c => dat3 (Ve3 m outs) c

structure Consistent : Prop where
  h0 : ∀ c : Dev nD, (dat0 (Ve0 m) c).arrAt 2 cfg0.N = outs 2 main_v1 c
  h1 : ∀ c : Dev nD, (dat1 (Ve1 m outs) c).arrAt 7 cfg1.N = outs 4 main_v9 c
  h2 : ∀ c : Dev nD, (dat2 (Ve2 m outs) c).arrAt 7 cfg2.N = outs 6 main_v11 c
  h3 : ∀ c : Dev nD, (dat3 (Ve3 m outs) c).arrAt 2 cfg3.N = outs 10 main_v35 c

abbrev RS (c : Dev nD) : sProp 𝕄 := iprop((∃ r, prngReg c r) ∗ ∃ W, owes (c : Thread nD τ) (0 : CellTallies nD τ sig Unit) W)

abbrev ES : Fin 5 → Dev nD → sProp 𝕄 := fun _ c => RS c

abbrev 𝒱S : Variants := Variants.none
abbrev LS : GSem nD τ sig → Finset Unit := fun _ => ∅
abbrev lvS : GSem nD τ sig → Unit → ℕ := fun _ _ => 0

end Cert.KernelIdeal.Hand

end
-- ==== Proof.LibShared.lean ====
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

noncomputable section

namespace Idealize.SL.BI

open Idealize.SL.RA Idealize.SL.ProofMode
open BIBase Laws

variable {M : Type} [URA M]

theorem sep_rot (P Q R : sProp M) : iprop((P ∗ Q) ∗ R) = iprop(Q ∗ P ∗ R) :=
  have h := (sep_congr_left (Laws.sep_comm (P := P) (Q := Q))).trans (Laws.sep_assoc (R := R))
  Entails.antisymm h.1 h.2

-- Both sides split at a and b: the summand at the common image is theirs joined, the others match one to one.
theorem bigSep_image_pair {I J : Type} [Fintype I] [DecidableEq I] [DecidableEq J] {f : I → J} {a b : I}
    (hab : a ≠ b) (hf : f b = f a) (hinj : ∀ w w', w ≠ b → w' ≠ b → f w = f w' → w = w')
    {T : J → sProp M} {Ψ : I → sProp M} (hT : T (f a) = iprop(Ψ a ∗ Ψ b)) (hr : ∀ w, w ≠ a → w ≠ b → Ψ w = T (f w)) :
    bigSep (Finset.univ.image f) T = bigSep Finset.univ Ψ := by
  have hmem : a ∈ Finset.univ.erase b := Finset.mem_erase.mpr ⟨hab, Finset.mem_univ _⟩
  have hi : Set.InjOn f ↑(Finset.univ.erase b) := fun w hw w' hw' h =>
    hinj w w' (Finset.ne_of_mem_erase (Finset.mem_coe.mp hw)) (Finset.ne_of_mem_erase (Finset.mem_coe.mp hw')) h
  rw [← Finset.insert_erase (Finset.mem_univ b), Finset.image_insert, hf,
    Finset.insert_eq_of_mem (Finset.mem_image_of_mem f hmem), bigSep_image_of_injOn hi,
    bigSep_insert (Finset.notMem_erase _ _), bigSep_erase hmem, bigSep_erase hmem (Φ := Ψ), hT,
    bigSep_congr (Φ := Ψ) fun w hw => hr w (Finset.ne_of_mem_erase hw) (Finset.ne_of_mem_erase (Finset.mem_of_mem_erase hw))]
  exact sep_rot _ _ _

end Idealize.SL.BI

namespace Idealize.ShloMosaic.Pipeline

open Idealize.ShloMosaic.TcCoe
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Val : EltTy → Type}
variable {Ix : Type} [DecidableEq Ix] {Name : Type} [DecidableEq Name] {U : Type} [URA U] {Lvl : Type}
variable {Λ₀ : SL.Sem.Labels}

local notation "𝕄" => MT nD τ sig Ix Val Name U Lvl

-- The whole share is its two halves joined, so the two windows on one buffer sum to that buffer held whole.
theorem arrBufs_eq_arrays {cfg : Cfg sig Λ₀} {c : Dev nD} (dat : Dat τ Val Ix Name U Lvl cfg c)
    (harr : ∀ w, (cfg.spec w).arr.IsWhole) {a b : Fin cfg.W}
    (hs : a ≠ b ∧ arrRef cfg.spec b = arrRef cfg.spec a
      ∧ (∀ w w', w ≠ b → w' ≠ b → arrRef cfg.spec w = arrRef cfg.spec w' → w = w')
      ∧ (cfg.win a).isOut = false ∧ (cfg.win b).isOut = false)
    (hqa : dat.q a = fullShare.left) (hqb : dat.q b = fullShare.right)
    (hqr : ∀ w, w ≠ a → w ≠ b → (cfg.win w).isOut = false → dat.q w = fullShare)
    (V : (b : Ref sig .tc) → Buf Val ((c : Thread nD τ).loc b))
    (G : (w : Fin cfg.W) → Buf Val ((cfg.win w).arr.view.loc (c : Thread nD τ)))
    (hG : ∀ w, G w = V (arrRef cfg.spec w)) :
    (arrBufs cfg.spec c V : sProp 𝕄) = dat.arrays G := by
  have e : ∀ w q, ((cfg.win w).arr.view.loc (c : Thread nD τ) ↦[(cfg.win w).arr.view.set]{q} G w : sProp 𝕄)
      = (((c : Thread nD τ).loc (arrRef cfg.spec w)) ↦{q} V (arrRef cfg.spec w)) := fun w q => by
    rw [(harr w).set_eq_univ, hG w]
  have ha : dat.share a = fullShare.left := (if_neg (Bool.eq_false_iff.mp hs.2.2.2.1)).trans hqa
  have hb : dat.share b = fullShare.right := (if_neg (Bool.eq_false_iff.mp hs.2.2.2.2)).trans hqb
  have hr : ∀ w, w ≠ a → w ≠ b → dat.share w = fullShare := fun w h1 h2 => by
    unfold Dat.share; split
    · rfl
    · exact hqr w h1 h2 ((Bool.not_eq_true _).mp ‹_›)
  unfold arrBufs Dat.arrays
  refine bigSep_image_pair hs.1 hs.2.1 hs.2.2.1 ?_ fun w h1 h2 => by rw [hr w h1 h2, e]
  rw [ha, hb, e, e, hs.2.1]
  exact BI.Entails.antisymm (pointsTo_share (PosShare.mem_left_op_right fullShare)).1
    (pointsTo_share (PosShare.mem_left_op_right fullShare)).2

-- The unscoped buffers are the buffers behind a region's arrays and the rest, and V' differs from V at those buffers only.
theorem split_join {cfg : Cfg sig Λ₀} (hw : WinFacts₀ cfg.spec) {c : Dev nD} (dat : Dat τ Val Ix Name U Lvl cfg c)
    (harrs : ∀ V G, (∀ w, G w = V (arrRef cfg.spec w)) → (arrBufs cfg.spec c V : sProp 𝕄) = dat.arrays G)
    (V V' : (b : Ref sig .tc) → Buf Val ((c : Thread nD τ).loc b))
    (G G' : (w : Fin cfg.W) → Buf Val ((cfg.win w).arr.view.loc (c : Thread nD τ)))
    (hG : ∀ w, G w = V (arrRef cfg.spec w)) (hG' : ∀ w, G' w = V' (arrRef cfg.spec w))
    (hrest : ∀ b, b ∉ Finset.univ.image (arrRef cfg.spec) → V' b = V b) :
    ((unscopedBufs c V : sProp 𝕄) ⊢ iprop(dat.arrays G ∗ unscopedRest cfg.spec c V))
      ∧ (iprop(dat.arrays G' ∗ unscopedRest cfg.spec c V) ⊢ (unscopedBufs c V' : sProp 𝕄)) := by
  have h : ∀ V, (unscopedBufs c V : sProp 𝕄) = iprop(arrBufs cfg.spec c V ∗ unscopedRest cfg.spec c V) :=
    unscopedBufs_split₀ (fun _ : Unit => cfg) () hw.arr_unscoped c
  rw [h V, h V', harrs V G hG, harrs V' G' hG',
    show (unscopedRest cfg.spec c V' : sProp 𝕄) = unscopedRest cfg.spec c V from by
      unfold unscopedRest; exact bigSep_congr fun b hb => by rw [hrest b (Finset.mem_sdiff.mp hb).2]]
  exact ⟨.rfl, .rfl⟩

-- An input array is never written, the output array ends at V' there, and V' is V elsewhere.
theorem exit_facts {cfg : Cfg sig Λ₀} {c : Dev nD} (dat : Dat τ Val Ix Name U Lvl cfg c)
    (V V' : (b : Ref sig .tc) → Buf Val ((c : Thread nD τ).loc b)) {o : Fin cfg.W}
    (hd : (∀ w, (cfg.win w).isOut = true → w = o)
      ∧ ∀ w, (cfg.win w).isOut = false → arrRef cfg.spec w ∉ [arrRef cfg.spec o])
    (hA : ∀ w, dat.A w = V (arrRef cfg.spec w))
    (ho : dat.arrAt o cfg.N = V' (arrRef cfg.spec o))
    (hV : ∀ b, b ∉ [arrRef cfg.spec o] → V' b = V b) :
    (∀ w, dat.arrAt w cfg.N = V' (arrRef cfg.spec w))
      ∧ ∀ b, b ∉ Finset.univ.image (arrRef cfg.spec) → V' b = V b := by
  refine ⟨fun w => ?_, fun b hb => hV b fun h => hb ?_⟩
  · by_cases hw : (cfg.win w).isOut = true
    · obtain rfl := hd.1 w hw; exact ho
    · have hin := (Bool.not_eq_true _).mp hw
      exact ((dat.arrAt_in w hin _).trans (hA w)).trans (hV _ (hd.2 w hin)).symm
  · rw [List.mem_singleton.mp h]; exact Finset.mem_image_of_mem _ (Finset.mem_univ o)

theorem q_rest {q : Fin 8 → PosShare TreeShare} (h : q 0 = fullShare ∧ q 1 = fullShare.left ∧ q 2 = fullShare.right
    ∧ q 3 = fullShare ∧ q 4 = fullShare ∧ q 5 = fullShare ∧ q 6 = fullShare) :
    ∀ w : Fin 8, w ≠ 1 → w ≠ 2 → w ≠ 7 → q w = fullShare
  | ⟨0, _⟩, _, _, _ => h.1
  | ⟨1, _⟩, h1, _, _ => (h1 rfl).elim
  | ⟨2, _⟩, _, h2, _ => (h2 rfl).elim
  | ⟨3, _⟩, _, _, _ => h.2.2.2.1
  | ⟨4, _⟩, _, _, _ => h.2.2.2.2.1
  | ⟨5, _⟩, _, _, _ => h.2.2.2.2.2.1
  | ⟨6, _⟩, _, _, _ => h.2.2.2.2.2.2
  | ⟨7, _⟩, _, _, h7 => (h7 rfl).elim

end Idealize.ShloMosaic.Pipeline

end
-- ==== Proof.KI.Segs.lean ====
import proofs.«139954_j43997644980465_1_alg».proof.Proof.KI.Data
import proofs.«139954_j43997644980465_1_alg».proof.Proof.LibShared

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (outs : Outs (F := F))

-- The region's record from the split of the buffers at V on entry and their join at V' on exit.
def mkReg {p : Fin 4} (win : Pipeline.WinFacts₀ (pcfgs (F := F) p).spec)
    (block_pos : ∀ w : Fin (cfgs p).W, 0 < ((cfgs p).spec w).block.numel)
    (stage_whole : ∀ (w : Fin (cfgs p).W) (s : Fin ((cfgs p).spec w).nbuf), (((cfgs p).spec w).stage s).IsWhole)
    (hbody : ∀ c, BodyObligation (pdats m outs p c) (defs₀ (F := F)) Variants.none () Set.univ)
    (hdat : ∀ c, (∀ t, (pdats m outs p c).owed t = 0) ∧ (pdats m outs p c).recorded 0 = Set.univ)
    (V V' : Dev nD → Valuation τ sig (Elt F))
    (hin : ∀ c, Pipeline.ΦA (cfgs p).spec c ⊢ (pdats m outs p c).Φ 0)
    (hout : ∀ c, (pdats m outs p c).Φ (Fin.last (cfgs p).N) ⊢ Pipeline.ΦA (cfgs p).spec c)
    (hsj : ∀ c, ((unscopedBufs c (fun b => V c b) : sProp 𝕄)
        ⊢ iprop((pdats m outs p c).arrays ((pdats m outs p c).arrAt · 0) ∗ Pipeline.unscopedRest (cfgs p).spec c (fun b => V c b)))
      ∧ (iprop((pdats m outs p c).arrays ((pdats m outs p c).arrAt · (cfgs p).N) ∗ Pipeline.unscopedRest (cfgs p).spec c (fun b => V c b))
        ⊢ (unscopedBufs c (fun b => V' c b) : sProp 𝕄))) :
    Pipeline.RegionSeg (pcfgs (F := F)) adm (pdats m outs) () defs₀ 𝒱S LS lvS p where
  win := win
  block_pos := block_pos
  stage_whole := stage_whole
  K := PEmpty
  osem k := k.elim
  ho := Pipeline.OwnSemFacts.none _
  hbody c := (hbody c).loose
  hwaits := Pipeline.hwaits_of_owed_zero _ _ _ _ LS lvS p fun c => (hdat c).1
  pre c := iprop(StableHlo.held (c : Thread nD τ) (Pipeline.ucRefs τ sig) (V c) ∗ RS c)
  post c := iprop(StableHlo.held (c : Thread nD τ) (Pipeline.ucRefs τ sig) (V' c) ∗ RS c)
  X c := iprop(∃ r, prngReg c r)
  Y c := iprop(∃ r, prngReg c r)
  Z c := Pipeline.unscopedRest (Ix := Unit) (Name := ℕ) (U := UR sig nD τ) (Lvl := ℕ) (cfgs p).spec c (fun b => V c b)
  hentry c := by
    rw [Pipeline.ownSems0_none]
    have hsplit := (hsj c).1
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin; rw [(hdat c).1]
      icases HO with ⟨%W, HO⟩; iexists W; isplitr; · ipureintro; exact fun x _ => Or.inl ((hdat c).2 ▸ Set.mem_univ x)
      iexact HO
    isplitl [Hp]; · iexact Hp
    iexact Hrest
  hin c := by
    refine BIBase.Entails.trans ?_ (hin c)
    unfold Pipeline.ΦA
    iintro ⟨Hp, -, Hr⟩
    isplitl [Hr]; · iexact Hr
    iexact Hp
  hout c := by
    rw [Pipeline.ownSems0_none]
    refine (hout c).trans ?_
    unfold Pipeline.ΦA
    iintro ⟨Hr, Hp⟩
    isplitl [Hp]; · iexact Hp
    isplitr; · iempintro
    iexact Hr
  hexit c := by
    have hjoin := (hsj c).2
    rw [Pipeline.unscopedBufs_held] at hjoin
    iintro ⟨Ha, HO, HY, Hrest⟩
    imodintro
    isplitl [Ha Hrest]
    · iapply hjoin
      isplitl [Ha]; · iexact Ha
      iexact Hrest
    isplitl [HY]; · iexact HY
    unfold Pipeline.Dat.owesAt Pipeline.owesWithin; rw [(hdat c).1]
    icases HO with ⟨%W, -, HO⟩; iexists W; iexact HO

theorem V2_out (c : Dev nD) : V2 m outs c main_v1 = outs 2 main_v1 c := by simp only [V2, Function.update_self]
theorem V4_out (c : Dev nD) : V4 m outs c main_v9 = outs 4 main_v9 c := by simp only [V4, Function.update_self]
theorem V6_out (c : Dev nD) : V6 m outs c main_v11 = outs 6 main_v11 c := by simp only [V6, Function.update_self]
theorem V10_out (c : Dev nD) : V10 m outs c main_v35 = outs 10 main_v35 c := by simp only [V10, Function.update_self]

def reg0 (hc : Consistent m outs) : Pipeline.RegionSeg (pcfgs (F := F)) adm (pdats m outs) () defs₀ 𝒱S LS lvS 0 :=
  mkReg m outs (p := 0) winFacts₀0 block_pos0 stage_whole0 (body_obligation0 (Ve0 m)) (fun _ => ⟨fun _ => rfl, rfl⟩)
    (V1 m) (V2 m outs) (hin0 (Ve0 m)) (hout0 (Ve0 m)) fun c =>
    have h := Pipeline.exit_facts (dat0 (Ve0 m) c) (Ve0 m c) (fun b => V2 m outs c b) (o := 2) (by decide) (A_eq0 _ c)
      ((hc.h0 c).trans (V2_out m outs c).symm) (V2_of m outs c)
    Pipeline.split_join winFacts₀0 (dat0 (Ve0 m) c)
      (Pipeline.arrBufs_eq_arrays (dat0 (Ve0 m) c) arr_whole0 (a := 0) (b := 1) (by decide) (q0_0 _ c) (q0_1 _ c)
        fun w h0 h1 hw => ((by decide : ∀ w : Fin 3, w ≠ 0 → w ≠ 1 → (cfg0.win w).isOut ≠ false) w h0 h1 hw).elim)
      _ _ _ _ (fun _ => rfl) h.1 h.2

def reg1 (hc : Consistent m outs) : Pipeline.RegionSeg (pcfgs (F := F)) adm (pdats m outs) () defs₀ 𝒱S LS lvS 1 :=
  mkReg m outs (p := 1) winFacts₀1 block_pos1 stage_whole1 (body_obligation1 (Ve1 m outs)) (fun _ => ⟨fun _ => rfl, rfl⟩)
    (V3 m outs) (V4 m outs) (hin1 (Ve1 m outs)) (hout1 (Ve1 m outs)) fun c =>
    have h := Pipeline.exit_facts (dat1 (Ve1 m outs) c) (Ve1 m outs c) (fun b => V4 m outs c b) (o := 7) (by decide) (A_eq1 _ c)
      ((hc.h1 c).trans (V4_out m outs c).symm) (V4_of m outs c)
    have q := q1 (Ve1 m outs) c
    Pipeline.split_join winFacts₀1 (dat1 (Ve1 m outs) c)
      (Pipeline.arrBufs_eq_arrays (dat1 (Ve1 m outs) c) arr_whole1 (a := 1) (b := 2) (by decide) q.2.1 q.2.2.1
        fun w h1 h2 hw => Pipeline.q_rest q w h1 h2 ((by decide : ∀ w : Fin 8, (cfg1.win w).isOut = false → w ≠ 7) w hw))
      _ _ _ _ (fun _ => rfl) h.1 h.2

def reg2 (hc : Consistent m outs) : Pipeline.RegionSeg (pcfgs (F := F)) adm (pdats m outs) () defs₀ 𝒱S LS lvS 2 :=
  mkReg m outs (p := 2) winFacts₀2 block_pos2 stage_whole2 (body_obligation2 (Ve2 m outs)) (fun _ => ⟨fun _ => rfl, rfl⟩)
    (V5 m outs) (V6 m outs) (hin2 (Ve2 m outs)) (hout2 (Ve2 m outs)) fun c =>
    have h := Pipeline.exit_facts (dat2 (Ve2 m outs) c) (Ve2 m outs c) (fun b => V6 m outs c b) (o := 7) (by decide) (A_eq2 _ c)
      ((hc.h2 c).trans (V6_out m outs c).symm) (V6_of m outs c)
    have q := q2 (Ve2 m outs) c
    Pipeline.split_join winFacts₀2 (dat2 (Ve2 m outs) c)
      (Pipeline.arrBufs_eq_arrays (dat2 (Ve2 m outs) c) arr_whole2 (a := 1) (b := 2) (by decide) q.2.1 q.2.2.1
        fun w h1 h2 hw => Pipeline.q_rest q w h1 h2 ((by decide : ∀ w : Fin 8, (cfg2.win w).isOut = false → w ≠ 7) w hw))
      _ _ _ _ (fun _ => rfl) h.1 h.2

theorem hshare3 (c : Dev nD) : ∀ w, (dat3 (Ve3 m outs) c).share w = fullShare :=
  (dat3 (Ve3 m outs) c).share_full fun
    | ⟨0, _⟩ => q3_0 (Ve3 m outs) c
    | ⟨1, _⟩ => q3_1 (Ve3 m outs) c
    | ⟨2, _⟩ => rfl

def reg3 (hc : Consistent m outs) : Pipeline.RegionSeg (pcfgs (F := F)) adm (pdats m outs) () defs₀ 𝒱S LS lvS 3 :=
  mkReg m outs (p := 3) launch3.win.to₀ launch3.block_pos launch3.stage_whole (body_obligation3 (Ve3 m outs))
    (fun _ => ⟨fun _ => rfl, rfl⟩) (V9 m outs) (V10 m outs) (hin3 (Ve3 m outs)) (hout3 (Ve3 m outs)) fun c =>
    have h := Pipeline.exit_facts (dat3 (Ve3 m outs) c) (Ve3 m outs c) (fun b => V10 m outs c b) (o := 2) (by decide) (A_eq3 _ c)
      ((hc.h3 c).trans (V10_out m outs c).symm) (V10_of m outs c)
    ⟨Pipeline.arrays_of_unscopedBufs (p := 3) (pcfgs (F := F)) adm (pdats m outs) launch3.win launch3.arr_whole c
        (hshare3 m outs c) (Ve3 m outs c) fun _ => rfl,
      Pipeline.unscopedBufs_of_arrays (p := 3) (pcfgs (F := F)) adm (Ix := Unit) (Name := ℕ) (U := UR sig nD τ) (Lvl := ℕ)
        launch3.win launch3.arr_whole c (pdats m outs) (hshare3 m outs c) (Ve3 m outs c) (fun b => V10 m outs c b)
        ((pdats m outs 3 c).arrAt · cfg3.N) h.1 h.2⟩

theorem hu₀S : (ownU (initOf (Pipeline.cells cfgs cellOf_inj) (Pipeline.launchToks cfgs cellOf_inj)) : sProp 𝕄)
    ⊢ |={Set.univ}=> iprop(BI.own ((emb₁ : Emb (URounds (GSem nD τ sig) Unit) 𝕄) (initOf (Pipeline.cells cfgs cellOf_inj) (Pipeline.launchToks cfgs cellOf_inj)))
        ∗ bigSep Finset.univ fun _ : Dev nD => (iprop(emp) : sProp 𝕄)) := by
  iintro Hu; imodintro
  isplitl [Hu]
  · iapply (show (ownU (initOf (Pipeline.cells cfgs cellOf_inj) (Pipeline.launchToks cfgs cellOf_inj)) : sProp 𝕄)
        ⊢ BI.own ((emb₁ : Emb (URounds (GSem nD τ sig) Unit) 𝕄) (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

theorem hE0S (ρ : Dev nD → PrngReg) :
    iprop((bigSep Finset.univ fun c : Dev nD => iprop(unscopedSems0 c ∗ owes (c : Thread nD τ) ((0 : Dev nD → CellTallies nD τ sig Unit) c) ∅
        ∗ Pipeline.launchCred (0 : Dev nD → CellTallies nD τ sig Unit) c ∗ prngReg c (ρ c) ∗ (iprop(emp) : sProp 𝕄))) ∗ levAts LS lvS)
      ⊢ (|={Set.univ}=> bigSep Finset.univ (ES (F := F) 0) : sProp 𝕄) := by
  refine Pipeline.initEach LS lvS fun c => ?_
  iintro ⟨⟨-, HO, -, Hp, -⟩, -⟩
  imodintro
  isplitl [Hp]; · iexists _; iexact Hp
  iexists ∅; iexact HO

theorem hE4S (c : Dev nD) : ES (F := F) 4 c ⊢ (iprop(∃ W, owes (c : Thread nD τ) (0 : CellTallies nD τ sig Unit) W) : sProp 𝕄) := by
  iintro ⟨-, H⟩; iexact H

end Cert.KernelIdeal.Hand

end
-- ==== Proof.KI.RunOf.lean ====
import proofs.«139954_j43997644980465_1_alg».proof.Proof.KI.Segs
import proofs.«139954_j43997644980465_1_alg».proof.Proof.KI.RunCond

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (outs : Outs (F := F))

set_option backward.isDefEq.respectTransparency.types false in

theorem run_of_consistent (hc : Consistent m outs) (ρ : Dev nD → PrngReg) :
    θ_run defs (onTc (τ := τ) (main (F := F))) ⟨m, fun _ => 0, ρ⟩ (fun r => ∀ c : Dev nD,
      r.2.mem ((c.tc : Thread nD τ).loc main_v45) = V13 m outs c main_v45
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  GenP.run_cond m emb₁ () 𝒱S LS lvS (fun _ _ => rfl) ρ outs (pdats m outs) (O₀ := 0) (G := fun _ => iprop(emp))
    (u₀ := initOf (Pipeline.cells cfgs cellOf_inj) (Pipeline.launchToks cfgs cellOf_inj))
    (hu₀ := hu₀S) (ES (F := F)) (hE0 := hE0S ρ) (hE4 := hE4S)
    (reg0 m outs hc) (fun _ => .rfl) (fun _ => .rfl) (reg1 m outs hc) (fun _ => .rfl) (fun _ => .rfl)
    (reg2 m outs hc) (fun _ => .rfl) (fun _ => .rfl) (reg3 m outs hc) (fun _ => .rfl) (fun _ => .rfl)

end Cert.KernelIdeal.Hand

end
-- ==== Proof.KI.Outs.lean ====
import proofs.«139954_j43997644980465_1_alg».proof.Proof.KI.Data

noncomputable section

namespace Cert.KernelIdeal.Hand

open Idealize.ShloMosaic Idealize.ShloMosaic.TcCoe
open Idealize.SL Idealize.SL.Sem
open Idealize.ShloMosaic.Pipeline (Dat)
open Cert.KernelIdeal Cert.KernelIdeal.Gen

variable {F : FTy → Type} [FloatOps F]

def mkOuts (a1 : (c : Dev nD) → Buf (Elt F) ((c : Thread nD τ).loc main_v1)) (a9 : (c : Dev nD) → Buf (Elt F) ((c : Thread nD τ).loc main_v9))
    (a11 : (c : Dev nD) → Buf (Elt F) ((c : Thread nD τ).loc main_v11)) (a35 : (c : Dev nD) → Buf (Elt F) ((c : Thread nD τ).loc main_v35)) : Outs (F := F) :=
  fun _ r c =>
    if h : r = main_v1 then by subst h; exact a1 c
    else if h : r = main_v9 then by subst h; exact a9 c
    else if h : r = main_v11 then by subst h; exact a11 c
    else if h : r = main_v35 then by subst h; exact a35 c
    else Classical.arbitrary _

section
variable (a1 : (c : Dev nD) → Buf (Elt F) ((c : Thread nD τ).loc main_v1)) (a9 : (c : Dev nD) → Buf (Elt F) ((c : Thread nD τ).loc main_v9))
  (a11 : (c : Dev nD) → Buf (Elt F) ((c : Thread nD τ).loc main_v11)) (a35 : (c : Dev nD) → Buf (Elt F) ((c : Thread nD τ).loc main_v35))
theorem mkOuts_v1 (J : ℕ) (c : Dev nD) : mkOuts a1 a9 a11 a35 J main_v1 c = a1 c := rfl
theorem mkOuts_v9 (J : ℕ) (c : Dev nD) : mkOuts a1 a9 a11 a35 J main_v9 c = a9 c := rfl
theorem mkOuts_v11 (J : ℕ) (c : Dev nD) : mkOuts a1 a9 a11 a35 J main_v11 c = a11 c := rfl
end

variable (m : (ℓ : Loc nD τ sig) → Buf (Elt F) ℓ)

def junkAt (r : Ref sig .tc) : (c : Dev nD) → Buf (Elt F) ((c : Thread nD τ).loc r) := fun _ => Classical.arbitrary _

def a1K (c : Dev nD) : Buf (Elt F) ((c : Thread nD τ).loc main_v1) := (dat0 (Ve0 m) c).arrAt 2 cfg0.N
def o1K : Outs (F := F) := mkOuts (a1K m) (junkAt main_v9) (junkAt main_v11) (junkAt main_v35)

def a9K (c : Dev nD) : Buf (Elt F) ((c : Thread nD τ).loc main_v9) := (dat1 (Ve1 m (o1K m)) c).arrAt 7 cfg1.N
def o2K : Outs (F := F) := mkOuts (a1K m) (a9K m) (junkAt main_v11) (junkAt main_v35)

def a11K (c : Dev nD) : Buf (Elt F) ((c : Thread nD τ).loc main_v11) := (dat2 (Ve2 m (o2K m)) c).arrAt 7 cfg2.N
def o3K : Outs (F := F) := mkOuts (a1K m) (a9K m) (a11K m) (junkAt main_v35)

def a35K (c : Dev nD) : Buf (Elt F) ((c : Thread nD τ).loc main_v35) := (dat3 (Ve3 m (o3K m)) c).arrAt 2 cfg3.N

def outsK : Outs (F := F) := mkOuts (a1K m) (a9K m) (a11K m) (a35K m)

theorem outsK_v1 (c : Dev nD) : outsK m 2 main_v1 c = a1K m c := rfl
theorem outsK_v9 (c : Dev nD) : outsK m 4 main_v9 c = a9K m c := rfl
theorem outsK_v11 (c : Dev nD) : outsK m 6 main_v11 c = a11K m c := rfl
theorem outsK_v35 (c : Dev nD) : outsK m 10 main_v35 c = a35K m c := rfl

theorem Ve1_outsK : Ve1 m (outsK m) = Ve1 m (o1K m) := by
  funext c b; unfold Ve1 V3 V2 outsK o1K; rw [mkOuts_v1, mkOuts_v1]
theorem Ve2_outsK : Ve2 m (outsK m) = Ve2 m (o2K m) := by
  funext c b; unfold Ve2 V5 V4 V3 V2 outsK o2K; rw [mkOuts_v1, mkOuts_v1, mkOuts_v9, mkOuts_v9]
theorem Ve3_outsK : Ve3 m (outsK m) = Ve3 m (o3K m) := by
  funext c b; unfold Ve3 V9 V8 V7 V6 V5 V4 V3 V2 outsK o3K
  rw [mkOuts_v1, mkOuts_v1, mkOuts_v9, mkOuts_v9, mkOuts_v11, mkOuts_v11]

theorem consistentK : Consistent m (outsK m) where
  h0 c := (outsK_v1 m c).symm
  h1 c := by rw [Ve1_outsK m]; exact (outsK_v9 m c).symm
  h2 c := by rw [Ve2_outsK m]; exact (outsK_v11 m c).symm
  h3 c := by rw [Ve3_outsK m]; exact (outsK_v35 m c).symm

end Cert.KernelIdeal.Hand

end
-- ==== Proof.BitsFrame.lean ====
import proofs.«139954_j43997644980465_1_alg».proof.Defs
import proofs.«139954_j43997644980465_1_alg».proof.Proof.Gen.Kernel
import proofs.«139954_j43997644980465_1_alg».proof.Proof.Gen.KernelIdeal
import proofs.«139954_j43997644980465_1_alg».proof.Proof.Gen.Pre_finite_inputs
import proofs.«139954_j43997644980465_1_alg».proof.Proof.KI.RunOf
import proofs.«139954_j43997644980465_1_alg».proof.Proof.KI.Outs

noncomputable section

namespace Cert.Proof

open Idealize.ShloMosaic Idealize.SL.Sem

-- The two programs are one text in two namespaces: label by label their kernel functions are the same term.
set_option maxHeartbeats 2400000 in
theorem defs0_eq : (@Cert.Kernel.defs₀ Bits _ _ : Defs Cert.KernelIdeal.nD Cert.KernelIdeal.τ Cert.KernelIdeal.sig (Elt Bits) Cert.KernelIdeal.Λ₀) = @Cert.KernelIdeal.defs₀ Bits _ _ :=
  funext fun p => match p with
    | .tc => funext fun ℓ => funext fun a => match ℓ, a with
      | 0, (t, s) => rfl
      | 1, (t, s) => rfl
      | 2, (t, s) => rfl
      | 3, (t, s) => rfl
      | ⟨_ + 4, h⟩, _ => absurd h (Nat.not_lt.2 (Nat.le_add_left _ _))
    | .scScalar _ => rfl
    | .scVector _ _ => rfl

-- The run lemma holds at every instance of the float operations: at this program's instance its post contains the frame.
set_option maxHeartbeats 2400000 in
theorem frame_kernel : Cert.frame_Kernel := fun m ρ _ =>
  (θ_run _ _ _).mono (fun _ h c => (h c).2)
    (Eq.mp (congrArg (fun d => θ_run (Pipeline.defs Cert.KernelIdeal.pcfgs d) _ _ _) defs0_eq.symm)
      (Cert.KernelIdeal.Hand.run_of_consistent (F := Bits) m (Cert.KernelIdeal.Hand.outsK m) (Cert.KernelIdeal.Hand.consistentK m) ρ))

end Cert.Proof

end
-- ==== Proof.Ref.RunVal.lean ====
import proofs.«139954_j43997644980465_1_alg».proof.Proof.Ref.ReadP
import Idealize.ShloMosaic.Lib.StableHlo.Run

noncomputable section

namespace Cert.ReferenceIdeal.RunP

open Cert.ReferenceIdeal Cert.ReferenceIdeal.Gen Idealize.ShloMosaic Idealize.ShloMosaic.TcCoe Idealize.SL.Sem Idealize.ShloMosaic.StableHlo

variable {F : FTy → Type} [FloatOps F]

/-- The reference's entry function as its list of host operations, in order. -/
abbrev ops : List (HloOp τ sig (Elt F)) :=
  [ unary main_arg0 main_v0 ((transpose S4096x4096 [1, 0] · transposes_S4096x4096_S4096x4096_1_0) : (⟨S4096x4096, .f32⟩ : BufTy).Contents (Elt F) → (⟨S4096x4096, .f32⟩ : BufTy).Contents (Elt F)),
    binary main_v0 main_arg0 main_v1 ((fun l r => Host.dotGeneral dot_S4096x4096_S4096x4096_S4096x4096_1_0_0_1_n_n none l r) : (⟨S4096x4096, .f32⟩ : BufTy).Contents (Elt F) → (⟨S4096x4096, .f32⟩ : BufTy).Contents (Elt F) → (⟨S4096x4096, .f32⟩ : BufTy).Contents (Elt F)),
    nullary main_cst (constant S_ .f32 0x00000000#32),
    unary main_cst main_v2 (broadcastInDim S4096x4096 ![] bcast_S_S4096x4096 : (⟨S_, .f32⟩ : BufTy).Contents (Elt F) → (⟨S4096x4096, .f32⟩ : BufTy).Contents (Elt F)),
    binary main_v1 main_v2 main_v3 (cmpf .ogt : (⟨S4096x4096, .f32⟩ : BufTy).Contents (Elt F) → (⟨S4096x4096, .f32⟩ : BufTy).Contents (Elt F) → (⟨S4096x4096, .i1⟩ : BufTy).Contents (Elt F)),
    unary main_v3 main_v4 (uitofp .f32 : (⟨S4096x4096, .i1⟩ : BufTy).Contents (Elt F) → (⟨S4096x4096, .f32⟩ : BufTy).Contents (Elt F)),
    unary main_v4 main_v5 ((transpose S4096x4096 [1, 0] · transposes_S4096x4096_S4096x4096_1_0) : (⟨S4096x4096, .f32⟩ : BufTy).Contents (Elt F) → (⟨S4096x4096, .f32⟩ : BufTy).Contents (Elt F)),
    nullary main_cst_0 (constant S_ .f32 0x00000000#32),
    binary main_v4 main_cst_0 main_v6 ((fun x v => Host.reduceAdd x v reducesTo_S4096x4096_S4096_d0 h_S_) : (⟨S4096x4096, .f32⟩ : BufTy).Contents (Elt F) → (⟨S_, .f32⟩ : BufTy).Contents (Elt F) → (⟨S4096, .f32⟩ : BufTy).Contents (Elt F)),
    nullary main_cst_1 (constant S_ .f32 0x3F800000#32),
    unary main_cst_1 main_v7 (broadcastInDim S4096 ![] bcast_S_S4096 : (⟨S_, .f32⟩ : BufTy).Contents (Elt F) → (⟨S4096, .f32⟩ : BufTy).Contents (Elt F)),
    binary main_v6 main_v7 main_v8 (maximumf : (⟨S4096, .f32⟩ : BufTy).Contents (Elt F) → (⟨S4096, .f32⟩ : BufTy).Contents (Elt F) → (⟨S4096, .f32⟩ : BufTy).Contents (Elt F)),
    nullary main_cst_2 (constant S_ .f32 0x3F800000#32),
    unary main_cst_2 main_v9 (broadcastInDim S4096 ![] bcast_S_S4096 : (⟨S_, .f32⟩ : BufTy).Contents (Elt F) → (⟨S4096, .f32⟩ : BufTy).Contents (Elt F)),
    binary main_v9 main_v8 main_v10 (Host.divf : (⟨S4096, .f32⟩ : BufTy).Contents (Elt F) → (⟨S4096, .f32⟩ : BufTy).Contents (Elt F) → (⟨S4096, .f32⟩ : BufTy).Contents (Elt F)),
    binary main_v5 main_arg1 main_v11 ((fun l r => Host.dotGeneral dot_S4096x4096_S4096x128_S4096x128_1_0_0_1_n_n none l r) : (⟨S4096x4096, .f32⟩ : BufTy).Contents (Elt F) → (⟨S4096x128, .f32⟩ : BufTy).Contents (Elt F) → (⟨S4096x128, .f32⟩ : BufTy).Contents (Elt F)),
    unary main_v10 main_v12 (broadcastInDim S4096x1 ![0] bcast_S4096_S4096x1_0 : (⟨S4096, .f32⟩ : BufTy).Contents (Elt F) → (⟨S4096x1, .f32⟩ : BufTy).Contents (Elt F)),
    unary main_v12 main_v13 (broadcastInDim S4096x128 ![0, 1] bcast_S4096x1_S4096x128_0_1 : (⟨S4096x1, .f32⟩ : BufTy).Contents (Elt F) → (⟨S4096x128, .f32⟩ : BufTy).Contents (Elt F)),
    binary main_v11 main_v13 main_v14 (mulf : (⟨S4096x128, .f32⟩ : BufTy).Contents (Elt F) → (⟨S4096x128, .f32⟩ : BufTy).Contents (Elt F) → (⟨S4096x128, .f32⟩ : BufTy).Contents (Elt F)),
    binary main_v14 main_arg2 main_v15 ((fun l r => Host.dotGeneral dot_S4096x128_S128x128_S4096x128_1_0_0_1_n_n none l r) : (⟨S4096x128, .f32⟩ : BufTy).Contents (Elt F) → (⟨S128x128, .f32⟩ : BufTy).Contents (Elt F) → (⟨S4096x128, .f32⟩ : BufTy).Contents (Elt F)),
    unary main_arg3 main_v16 (broadcastInDim S1x128 ![1] bcast_S128_S1x128_1 : (⟨S128, .f32⟩ : BufTy).Contents (Elt F) → (⟨S1x128, .f32⟩ : BufTy).Contents (Elt F)),
    unary main_v16 main_v17 (broadcastInDim S4096x128 ![0, 1] bcast_S1x128_S4096x128_0_1 : (⟨S1x128, .f32⟩ : BufTy).Contents (Elt F) → (⟨S4096x128, .f32⟩ : BufTy).Contents (Elt F)),
    binary main_v15 main_v17 main_v18 (addf : (⟨S4096x128, .f32⟩ : BufTy).Contents (Elt F) → (⟨S4096x128, .f32⟩ : BufTy).Contents (Elt F) → (⟨S4096x128, .f32⟩ : BufTy).Contents (Elt F)),
    binary main_arg1 main_arg4 main_v19 ((fun l r => Host.dotGeneral dot_S4096x128_S128x128_S4096x128_1_0_0_1_n_n none l r) : (⟨S4096x128, .f32⟩ : BufTy).Contents (Elt F) → (⟨S128x128, .f32⟩ : BufTy).Contents (Elt F) → (⟨S4096x128, .f32⟩ : BufTy).Contents (Elt F)),
    binary main_v18 main_v19 main_v20 (addf : (⟨S4096x128, .f32⟩ : BufTy).Contents (Elt F) → (⟨S4096x128, .f32⟩ : BufTy).Contents (Elt F) → (⟨S4096x128, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S4096x128, .f32⟩) main_call0_v0) (broadcastInDim S4096x128 ![] bcast_S_S4096x128),
    TRef.binary (TRef.of (T := ⟨S4096x128, .f32⟩) main_v20) (TRef.of (T := ⟨S4096x128, .f32⟩) main_call0_v0) (TRef.of (T := ⟨S4096x128, .f32⟩) main_v21) maximumf,
    binary main_v5 main_v21 main_v22 ((fun l r => Host.dotGeneral dot_S4096x4096_S4096x128_S4096x128_1_0_0_1_n_n none l r) : (⟨S4096x4096, .f32⟩ : BufTy).Contents (Elt F) → (⟨S4096x128, .f32⟩ : BufTy).Contents (Elt F) → (⟨S4096x128, .f32⟩ : BufTy).Contents (Elt F)),
    unary main_v10 main_v23 (broadcastInDim S4096x1 ![0] bcast_S4096_S4096x1_0 : (⟨S4096, .f32⟩ : BufTy).Contents (Elt F) → (⟨S4096x1, .f32⟩ : BufTy).Contents (Elt F)),
    unary main_v23 main_v24 (broadcastInDim S4096x128 ![0, 1] bcast_S4096x1_S4096x128_0_1 : (⟨S4096x1, .f32⟩ : BufTy).Contents (Elt F) → (⟨S4096x128, .f32⟩ : BufTy).Contents (Elt F)),
    binary main_v22 main_v24 main_v25 (mulf : (⟨S4096x128, .f32⟩ : BufTy).Contents (Elt F) → (⟨S4096x128, .f32⟩ : BufTy).Contents (Elt F) → (⟨S4096x128, .f32⟩ : BufTy).Contents (Elt F)),
    binary main_v25 main_arg5 main_v26 ((fun l r => Host.dotGeneral dot_S4096x128_S128x64_S4096x64_1_0_0_1_n_n none l r) : (⟨S4096x128, .f32⟩ : BufTy).Contents (Elt F) → (⟨S128x64, .f32⟩ : BufTy).Contents (Elt F) → (⟨S4096x64, .f32⟩ : BufTy).Contents (Elt F)),
    unary main_arg6 main_v27 (broadcastInDim S1x64 ![1] bcast_S64_S1x64_1 : (⟨S64, .f32⟩ : BufTy).Contents (Elt F) → (⟨S1x64, .f32⟩ : BufTy).Contents (Elt F)),
    unary main_v27 main_v28 (broadcastInDim S4096x64 ![0, 1] bcast_S1x64_S4096x64_0_1 : (⟨S1x64, .f32⟩ : BufTy).Contents (Elt F) → (⟨S4096x64, .f32⟩ : BufTy).Contents (Elt F)),
    binary main_v26 main_v28 main_v29 (addf : (⟨S4096x64, .f32⟩ : BufTy).Contents (Elt F) → (⟨S4096x64, .f32⟩ : BufTy).Contents (Elt F) → (⟨S4096x64, .f32⟩ : BufTy).Contents (Elt F)),
    binary main_v21 main_arg7 main_v30 ((fun l r => Host.dotGeneral dot_S4096x128_S128x64_S4096x64_1_0_0_1_n_n none l r) : (⟨S4096x128, .f32⟩ : BufTy).Contents (Elt F) → (⟨S128x64, .f32⟩ : BufTy).Contents (Elt F) → (⟨S4096x64, .f32⟩ : BufTy).Contents (Elt F)),
    binary main_v29 main_v30 main_v31 (addf : (⟨S4096x64, .f32⟩ : BufTy).Contents (Elt F) → (⟨S4096x64, .f32⟩ : BufTy).Contents (Elt F) → (⟨S4096x64, .f32⟩ : BufTy).Contents (Elt F)),
    binary main_v31 main_arg8 main_v32 ((fun l r => Host.dotGeneral dot_S4096x64_S64x1_S4096x1_1_0_0_1_n_n none l r) : (⟨S4096x64, .f32⟩ : BufTy).Contents (Elt F) → (⟨S64x1, .f32⟩ : BufTy).Contents (Elt F) → (⟨S4096x1, .f32⟩ : BufTy).Contents (Elt F)),
    unary main_arg9 main_v33 (broadcastInDim S1x1 ![1] bcast_S1_S1x1_1 : (⟨S1, .f32⟩ : BufTy).Contents (Elt F) → (⟨S1x1, .f32⟩ : BufTy).Contents (Elt F)),
    unary main_v33 main_v34 (broadcastInDim S4096x1 ![0, 1] bcast_S1x1_S4096x1_0_1 : (⟨S1x1, .f32⟩ : BufTy).Contents (Elt F) → (⟨S4096x1, .f32⟩ : BufTy).Contents (Elt F)),
    binary main_v32 main_v34 main_v35 (addf : (⟨S4096x1, .f32⟩ : BufTy).Contents (Elt F) → (⟨S4096x1, .f32⟩ : BufTy).Contents (Elt F) → (⟨S4096x1, .f32⟩ : BufTy).Contents (Elt F)),
    unary main_v35 main_v36 (Host.tanh : (⟨S4096x1, .f32⟩ : BufTy).Contents (Elt F) → (⟨S4096x1, .f32⟩ : BufTy).Contents (Elt F)),
    nullary main_cst_3 (constant S_ .f32 0x7F800000#32),
    binary main_v36 main_cst_3 main_v37 ((fun x v => Host.reduce FloatOps.minimumf x v reducesTo_S4096x1_S_d0_1 h_S_) : (⟨S4096x1, .f32⟩ : BufTy).Contents (Elt F) → (⟨S_, .f32⟩ : BufTy).Contents (Elt F) → (⟨S_, .f32⟩ : BufTy).Contents (Elt F)),
    nullary main_cst_4 (constant S_ .f32 0xFF800000#32),
    binary main_v36 main_cst_4 main_v38 ((fun x v => Host.reduce FloatOps.maximumf x v reducesTo_S4096x1_S_d0_1 h_S_) : (⟨S4096x1, .f32⟩ : BufTy).Contents (Elt F) → (⟨S_, .f32⟩ : BufTy).Contents (Elt F) → (⟨S_, .f32⟩ : BufTy).Contents (Elt F)),
    binary main_v38 main_v37 main_v39 (subf : (⟨S_, .f32⟩ : BufTy).Contents (Elt F) → (⟨S_, .f32⟩ : BufTy).Contents (Elt F) → (⟨S_, .f32⟩ : BufTy).Contents (Elt F)),
    unary main_v39 main_v40 (Host.absf : (⟨S_, .f32⟩ : BufTy).Contents (Elt F) → (⟨S_, .f32⟩ : BufTy).Contents (Elt F)),
    nullary main_cst_5 (constant S_ .f32 0x322BCC77#32),
    binary main_v40 main_cst_5 main_v41 (cmpf .olt : (⟨S_, .f32⟩ : BufTy).Contents (Elt F) → (⟨S_, .f32⟩ : BufTy).Contents (Elt F) → (⟨S_, .i1⟩ : BufTy).Contents (Elt F)),
    nullary main_cst_6 (constant S_ .f32 0x3F000000#32),
    unary main_cst_6 main_v42 (broadcastInDim S4096x1 ![] bcast_S_S4096x1 : (⟨S_, .f32⟩ : BufTy).Contents (Elt F) → (⟨S4096x1, .f32⟩ : BufTy).Contents (Elt F)),
    unary main_v37 main_v43 (broadcastInDim S4096x1 ![] bcast_S_S4096x1 : (⟨S_, .f32⟩ : BufTy).Contents (Elt F) → (⟨S4096x1, .f32⟩ : BufTy).Contents (Elt F)),
    binary main_v36 main_v43 main_v44 (subf : (⟨S4096x1, .f32⟩ : BufTy).Contents (Elt F) → (⟨S4096x1, .f32⟩ : BufTy).Contents (Elt F) → (⟨S4096x1, .f32⟩ : BufTy).Contents (Elt F)),
    binary main_v38 main_v37 main_v45 (subf : (⟨S_, .f32⟩ : BufTy).Contents (Elt F) → (⟨S_, .f32⟩ : BufTy).Contents (Elt F) → (⟨S_, .f32⟩ : BufTy).Contents (Elt F)),
    unary main_v45 main_v46 (broadcastInDim S4096x1 ![] bcast_S_S4096x1 : (⟨S_, .f32⟩ : BufTy).Contents (Elt F) → (⟨S4096x1, .f32⟩ : BufTy).Contents (Elt F)),
    binary main_v44 main_v46 main_v47 (Host.divf : (⟨S4096x1, .f32⟩ : BufTy).Contents (Elt F) → (⟨S4096x1, .f32⟩ : BufTy).Contents (Elt F) → (⟨S4096x1, .f32⟩ : BufTy).Contents (Elt F)),
    TRef.ternary (TRef.of (T := ⟨S_, .i1⟩) main_v41) (TRef.of (T := ⟨S4096x1, .f32⟩) main_v42) (TRef.of (T := ⟨S4096x1, .f32⟩) main_v47) (TRef.of (T := ⟨S4096x1, .f32⟩) main_v48) (fun p a b => select (broadcastInDim S4096x1 ![] bcast_S_S4096x1 p) a b),
    reshape main_v48 main_v49 rfl shapeCasts_S4096x1_S4096,
    unary main_v49 main_v50 (broadcastInDim S1x4096 ![1] bcast_S4096_S1x4096_1 : (⟨S4096, .f32⟩ : BufTy).Contents (Elt F) → (⟨S1x4096, .f32⟩ : BufTy).Contents (Elt F)),
    unary main_v50 main_v51 (broadcastInDim S4096x4096 ![0, 1] bcast_S1x4096_S4096x4096_0_1 : (⟨S1x4096, .f32⟩ : BufTy).Contents (Elt F) → (⟨S4096x4096, .f32⟩ : BufTy).Contents (Elt F)),
    binary main_arg0 main_v51 main_v52 (mulf : (⟨S4096x4096, .f32⟩ : BufTy).Contents (Elt F) → (⟨S4096x4096, .f32⟩ : BufTy).Contents (Elt F) → (⟨S4096x4096, .f32⟩ : BufTy).Contents (Elt F)),
    nullary main_cst_7 (constant S_ .f32 0x00000000#32),
    binary main_v52 main_cst_7 main_v53 ((fun x v => Host.reduceAdd x v reducesTo_S4096x4096_S4096_d1 h_S_) : (⟨S4096x4096, .f32⟩ : BufTy).Contents (Elt F) → (⟨S_, .f32⟩ : BufTy).Contents (Elt F) → (⟨S4096, .f32⟩ : BufTy).Contents (Elt F)),
    unary main_arg0 main_v54 ((transpose S4096x4096 [1, 0] · transposes_S4096x4096_S4096x4096_1_0) : (⟨S4096x4096, .f32⟩ : BufTy).Contents (Elt F) → (⟨S4096x4096, .f32⟩ : BufTy).Contents (Elt F)),
    binary main_v52 main_v54 main_v55 ((fun l r => Host.dotGeneral dot_S4096x4096_S4096x4096_S4096x4096_1_0_0_1_n_n none l r) : (⟨S4096x4096, .f32⟩ : BufTy).Contents (Elt F) → (⟨S4096x4096, .f32⟩ : BufTy).Contents (Elt F) → (⟨S4096x4096, .f32⟩ : BufTy).Contents (Elt F)),
    unary main_v53 main_v56 (broadcastInDim S4096x1 ![0] bcast_S4096_S4096x1_0 : (⟨S4096, .f32⟩ : BufTy).Contents (Elt F) → (⟨S4096x1, .f32⟩ : BufTy).Contents (Elt F)),
    unary main_v53 main_v57 (broadcastInDim S1x4096 ![1] bcast_S4096_S1x4096_1 : (⟨S4096, .f32⟩ : BufTy).Contents (Elt F) → (⟨S1x4096, .f32⟩ : BufTy).Contents (Elt F)),
    unary main_v56 main_v58 (broadcastInDim S4096x4096 ![0, 1] bcast_S4096x1_S4096x4096_0_1 : (⟨S4096x1, .f32⟩ : BufTy).Contents (Elt F) → (⟨S4096x4096, .f32⟩ : BufTy).Contents (Elt F)),
    unary main_v57 main_v59 (broadcastInDim S4096x4096 ![0, 1] bcast_S1x4096_S4096x4096_0_1 : (⟨S1x4096, .f32⟩ : BufTy).Contents (Elt F) → (⟨S4096x4096, .f32⟩ : BufTy).Contents (Elt F)),
    binary main_v58 main_v59 main_v60 (addf : (⟨S4096x4096, .f32⟩ : BufTy).Contents (Elt F) → (⟨S4096x4096, .f32⟩ : BufTy).Contents (Elt F) → (⟨S4096x4096, .f32⟩ : BufTy).Contents (Elt F)),
    unary main_v60 main_v61 (Host.absf : (⟨S4096x4096, .f32⟩ : BufTy).Contents (Elt F) → (⟨S4096x4096, .f32⟩ : BufTy).Contents (Elt F)),
    nullary main_cst_8 (constant S_ .f32 0x322BCC77#32),
    unary main_cst_8 main_v62 (broadcastInDim S4096x4096 ![] bcast_S_S4096x4096 : (⟨S_, .f32⟩ : BufTy).Contents (Elt F) → (⟨S4096x4096, .f32⟩ : BufTy).Contents (Elt F)),
    binary main_v61 main_v62 main_v63 (cmpf .olt : (⟨S4096x4096, .f32⟩ : BufTy).Contents (Elt F) → (⟨S4096x4096, .f32⟩ : BufTy).Contents (Elt F) → (⟨S4096x4096, .i1⟩ : BufTy).Contents (Elt F)),
    nullary main_cst_9 (constant S_ .f32 0x3F800000#32),
    TRef.unary (TRef.of (T := ⟨S_, .f32⟩) main_cst_9) (TRef.of (T := ⟨S_, .f32⟩) main_call2_v0) id,
    TRef.unary (TRef.of (T := ⟨S_, .f32⟩) main_call2_v0) (TRef.of (T := ⟨S4096x4096, .f32⟩) main_call2_v1) (broadcastInDim S4096x4096 ![] bcast_S_S4096x4096),
    TRef.ternary (TRef.of (T := ⟨S4096x4096, .i1⟩) main_v63) (TRef.of (T := ⟨S4096x4096, .f32⟩) main_call2_v1) (TRef.of (T := ⟨S4096x4096, .f32⟩) main_v60) (TRef.of (T := ⟨S4096x4096, .f32⟩) main_v64) select,
    binary main_v55 main_v64 main_v65 (Host.divf : (⟨S4096x4096, .f32⟩ : BufTy).Contents (Elt F) → (⟨S4096x4096, .f32⟩ : BufTy).Contents (Elt F) → (⟨S4096x4096, .f32⟩ : BufTy).Contents (Elt F)) ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨unary_bufs_sub .., binary_bufs_sub .., nullary_bufs_sub .., unary_bufs_sub .., binary_bufs_sub .., unary_bufs_sub .., unary_bufs_sub .., nullary_bufs_sub .., binary_bufs_sub .., nullary_bufs_sub .., unary_bufs_sub .., binary_bufs_sub .., nullary_bufs_sub .., unary_bufs_sub .., binary_bufs_sub .., binary_bufs_sub .., unary_bufs_sub .., unary_bufs_sub .., binary_bufs_sub .., binary_bufs_sub .., unary_bufs_sub .., unary_bufs_sub .., binary_bufs_sub .., binary_bufs_sub .., binary_bufs_sub .., nullary_bufs_sub .., unary_bufs_sub .., binary_bufs_sub .., binary_bufs_sub .., unary_bufs_sub .., unary_bufs_sub .., binary_bufs_sub .., binary_bufs_sub .., unary_bufs_sub .., unary_bufs_sub .., binary_bufs_sub .., binary_bufs_sub .., binary_bufs_sub .., binary_bufs_sub .., unary_bufs_sub .., unary_bufs_sub .., binary_bufs_sub .., unary_bufs_sub .., nullary_bufs_sub .., binary_bufs_sub .., nullary_bufs_sub .., binary_bufs_sub .., binary_bufs_sub .., unary_bufs_sub .., nullary_bufs_sub .., binary_bufs_sub .., nullary_bufs_sub .., unary_bufs_sub .., unary_bufs_sub .., binary_bufs_sub .., binary_bufs_sub .., unary_bufs_sub .., binary_bufs_sub .., ternary_bufs_sub .., reshape_bufs_sub .., unary_bufs_sub .., unary_bufs_sub .., binary_bufs_sub .., nullary_bufs_sub .., binary_bufs_sub .., unary_bufs_sub .., binary_bufs_sub .., unary_bufs_sub .., unary_bufs_sub .., unary_bufs_sub .., unary_bufs_sub .., binary_bufs_sub .., unary_bufs_sub .., nullary_bufs_sub .., unary_bufs_sub .., binary_bufs_sub .., nullary_bufs_sub .., unary_bufs_sub .., unary_bufs_sub .., ternary_bufs_sub .., binary_bufs_sub ..⟩

set_option maxRecDepth 8192 in
set_option maxHeartbeats 32400000 in
/-- Running the operations in order leaves the result buffer at the last stage of the arguments: the stages are the
    same operations composed one at a time. The arguments are written by no operation. -/
theorem run_val (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v65) = ReadP.val_main_v65 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c => ⟨(h c main_v65).trans (by after_results_simp <;> rfl),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl),
      (h c main_arg6).trans (by after_results_simp <;> rfl),
      (h c main_arg7).trans (by after_results_simp <;> rfl),
      (h c main_arg8).trans (by after_results_simp <;> rfl),
      (h c main_arg9).trans (by after_results_simp <;> rfl)⟩)
    (run_seq scopedRefs_eq scopedSems_eq defs main (fun _ => ops) main_eq (fun _ => ops_sub) m ρ)

/-- The frame is the run with the result forgotten. -/
theorem frame (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun _ h c => (h c).2) (run_val (F := Ideal) m ρ)

end Cert.ReferenceIdeal.RunP

end
-- ==== Proof.KI.HostVals.lean ====
import proofs.«139954_j43997644980465_1_alg».proof.Proof.Gen.KernelIdeal.Regions
import proofs.«139954_j43997644980465_1_alg».proof.Proof.Ref.ReadP
import Idealize.ShloMosaic.Lib.StableHlo.Run

noncomputable section

namespace Cert.KernelIdeal.Hand

open Cert.KernelIdeal Cert.KernelIdeal.Gen Idealize.ShloMosaic Idealize.ShloMosaic.TcCoe Idealize.SL.Sem Idealize.ShloMosaic.StableHlo
open Cert.ReferenceIdeal.ReadP

variable {F : FTy → Type} [FloatOps F]

-- one over the row sums of `A`, each floored at one, as a column
def invdegK (A : Vec F S4096x4096 .f32) : Vec F S4096x1 .f32 :=
  shapeCast S4096x1
    (Host.divf (broadcastInDim S4096 ![] bcast_S_S4096 (constant S_ .f32 0x3F800000#32))
      (maximumf (Host.reduceAdd A (constant S_ .f32 0x00000000#32) reducesTo_S4096x4096_S4096_d1 h_S_)
        (broadcastInDim S4096 ![] bcast_S_S4096 (constant S_ .f32 0x3F800000#32))))
    shapeCasts_S4096_S4096x1

variable (m : (ℓ : Loc nD τ sig) → Buf (Elt F) ℓ) (outs : Gen.Outs (F := F)) (c : Dev nD)

-- the ten inputs
abbrev X0 : Buf (Elt F) ((c : Thread nD τ).loc main_arg0) := m ((c : Thread nD τ).loc main_arg0)
abbrev X1 : Buf (Elt F) ((c : Thread nD τ).loc main_arg1) := m ((c : Thread nD τ).loc main_arg1)
abbrev X2 : Buf (Elt F) ((c : Thread nD τ).loc main_arg2) := m ((c : Thread nD τ).loc main_arg2)
abbrev X3 : Buf (Elt F) ((c : Thread nD τ).loc main_arg3) := m ((c : Thread nD τ).loc main_arg3)
abbrev X4 : Buf (Elt F) ((c : Thread nD τ).loc main_arg4) := m ((c : Thread nD τ).loc main_arg4)
abbrev X5 : Buf (Elt F) ((c : Thread nD τ).loc main_arg5) := m ((c : Thread nD τ).loc main_arg5)
abbrev X6 : Buf (Elt F) ((c : Thread nD τ).loc main_arg6) := m ((c : Thread nD τ).loc main_arg6)
abbrev X7 : Buf (Elt F) ((c : Thread nD τ).loc main_arg7) := m ((c : Thread nD τ).loc main_arg7)
abbrev X8 : Buf (Elt F) ((c : Thread nD τ).loc main_arg8) := m ((c : Thread nD τ).loc main_arg8)
abbrev X9 : Buf (Elt F) ((c : Thread nD τ).loc main_arg9) := m ((c : Thread nD τ).loc main_arg9)

-- Each operand of a kernel call is the reference's own stage wherever both apply the same operations to the same values.
theorem V1_v0 : V1 m c main_v0 = truncf .bf16 (X0 m c) bitsLt_bf16_f32 := by
  after_results

theorem V3_v1 : V3 m outs c main_v1 = outs 2 main_v1 c := by
  rw [V3_of _ _ _ _ (by decide)]
  exact Function.update_self ..

theorem V3_args :
    V3 m outs c main_arg1 = X1 m c ∧ V3 m outs c main_arg2 = X2 m c ∧ V3 m outs c main_arg4 = X4 m c := by
  refine ⟨?_, ?_, ?_⟩ <;> rw [V3_of _ _ _ _ (by decide), V2_of _ _ _ _ (by decide), V1_of _ _ _ (by decide)]

theorem V3_v7 : V3 m outs c main_v7 = invdegK (outs 2 main_v1 c) := by
  after_results
  rw [show V2 m outs c main_v1 = outs 2 main_v1 c from Function.update_self ..]
  rfl

theorem V3_v8 : V3 m outs c main_v8 = shapeCast S1x128 (X3 m c) shapeCasts_S128_S1x128 := by
  after_results
  rw [V2_of _ _ _ _ (by decide), V1_of _ _ _ (by decide)]
  rfl

theorem V5_v1 : V5 m outs c main_v1 = outs 2 main_v1 c := by
  rw [V5_of _ _ _ _ (by decide), V4_of _ _ _ _ (by decide), V3_v1]

theorem V5_v9 : V5 m outs c main_v9 = outs 4 main_v9 c := by
  rw [V5_of _ _ _ _ (by decide)]
  exact Function.update_self ..

theorem V5_args : V5 m outs c main_arg5 = X5 m c ∧ V5 m outs c main_arg7 = X7 m c := by
  constructor <;> rw [V5_of _ _ _ _ (by decide), V4_of _ _ _ _ (by decide), V3_of _ _ _ _ (by decide),
    V2_of _ _ _ _ (by decide), V1_of _ _ _ (by decide)]

theorem V5_v7 : V5 m outs c main_v7 = invdegK (outs 2 main_v1 c) := by
  rw [V5_of _ _ _ _ (by decide), V4_of _ _ _ _ (by decide), V3_v7]

theorem V5_v10 : V5 m outs c main_v10 = shapeCast S1x64 (X6 m c) shapeCasts_S64_S1x64 := by
  after_results
  rw [V4_of _ _ _ _ (by decide), V3_of _ _ _ _ (by decide), V2_of _ _ _ _ (by decide), V1_of _ _ _ (by decide)]
  rfl

theorem V9_v0 : V9 m outs c main_v0 = truncf .bf16 (X0 m c) bitsLt_bf16_f32 := by
  rw [V9_of _ _ _ _ (by decide), V8_of _ _ _ _ (by decide), V7_of _ _ _ _ (by decide), V6_of _ _ _ _ (by decide),
    V5_of _ _ _ _ (by decide), V4_of _ _ _ _ (by decide), V3_of _ _ _ _ (by decide), V2_of _ _ _ _ (by decide), V1_v0]

variable (h : outs 6 main_v11 c = val_main_v31 (X0 m c) (X1 m c) (X2 m c) (X3 m c) (X4 m c) (X5 m c) (X6 m c) (X7 m c))
include h

-- the gate's operands, once the second layer's output is the reference's
theorem V6_in :
    V6 m outs c main_v11 = val_main_v31 (X0 m c) (X1 m c) (X2 m c) (X3 m c) (X4 m c) (X5 m c) (X6 m c) (X7 m c)
      ∧ V6 m outs c main_arg8 = X8 m c ∧ V6 m outs c main_arg9 = X9 m c ∧ V6 m outs c main_arg0 = X0 m c := by
  refine ⟨(Function.update_self ..).trans h, ?_, ?_, ?_⟩ <;>
    rw [V6_of _ _ _ _ (by decide), V5_of _ _ _ _ (by decide), V4_of _ _ _ _ (by decide), V3_of _ _ _ _ (by decide),
      V2_of _ _ _ _ (by decide), V1_of _ _ _ (by decide)]

theorem V9_out :
    V9 m outs c main_v33
        = truncf .bf16 (val_main_v52 (X0 m c) (X1 m c) (X2 m c) (X3 m c) (X4 m c) (X5 m c) (X6 m c) (X7 m c) (X8 m c) (X9 m c))
            bitsLt_bf16_f32
      ∧ V9 m outs c main_v34
        = val_main_v53 (X0 m c) (X1 m c) (X2 m c) (X3 m c) (X4 m c) (X5 m c) (X6 m c) (X7 m c) (X8 m c) (X9 m c) := by
  obtain ⟨h11, h8, h9, h0⟩ := V6_in m outs c h
  constructor <;>
  · after_results_simp
    rw [h11, h8, h9, h0]
    rfl

theorem V13_v45 (h' : outs 10 main_v35 c
      = val_main_v55 (X0 m c) (X1 m c) (X2 m c) (X3 m c) (X4 m c) (X5 m c) (X6 m c) (X7 m c) (X8 m c) (X9 m c)) :
    V13 m outs c main_v45
      = val_main_v65 (X0 m c) (X1 m c) (X2 m c) (X3 m c) (X4 m c) (X5 m c) (X6 m c) (X7 m c) (X8 m c) (X9 m c) := by
  after_results_simp
  rw [show V10 m outs c main_v35 = outs 10 main_v35 c from Function.update_self .., h', V10_of _ _ _ _ (by decide),
    (V9_out m outs c h).2]
  rfl

end Cert.KernelIdeal.Hand

end
-- ==== Proof.KI.PayIdx.lean ====
import proofs.«139954_j43997644980465_1_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.KernelIdeal.PayIdx

open Cert.KernelIdeal Cert.KernelIdeal.Gen Idealize.ShloMosaic Idealize.ShloMosaic.ValueIdx

variable {sl sr so : Shape} {φ₁ φ₂ : FTy}

-- Into the zero accumulator a product with one contracted axis is, at an index, the sum over that axis' coordinate.
theorem matmul_zero_apply1 (D : DotDims sl sr so) (n : ℕ) (hr : D.contr.rank = 1) (hs : D.contr.size ⟨0, by omega⟩ = n)
    (l : FVec Ideal sl φ₁) (r : FVec Ideal sr φ₂) (j : so.Idx) (L : Fin n → sl.Idx) (R : Fin n → sr.Idx)
    (hL : ∀ k, D.lhsIdx j k = L (contrEquiv1 D n hr hs k)) (hR : ∀ k, D.rhsIdx j k = R (contrEquiv1 D n hr hs k)) :
    matmul D none l r (constant so .f32 0x00000000#32) j = ∑ K : Fin n, l (L K) * r (R K) := by
  simp only [matmul]
  rw [Ideal.matmul_constant_zero_apply, ← Equiv.sum_comp (contrEquiv1 D n hr hs)]
  exact Finset.sum_congr rfl fun k _ => by rw [hL, hR]

theorem dotTN_zero_apply (l : FVec Ideal S1024x1024 φ₁) (r : FVec Ideal S1024x1024 φ₂) (p q : Fin 1024) :
    matmul dot_S1024x1024_S1024x1024_S1024x1024_0_0_1_1_n_n none l r (constant S1024x1024 .f32 0x00000000#32) (ix2 p q)
      = ∑ k : Fin 1024, l (ix2 k p) * r (ix2 k q) :=
  matmul_zero_apply1 _ 1024 rfl rfl l r _ (ix2 · p) (ix2 · q)
    (fun k => Shape.idx_ext₂ (DotDims.lhsIdx_val_of_single _ rfl _ k) rfl) (fun k => Shape.idx_ext₂ (DotDims.rhsIdx_val_of_single _ rfl _ k) rfl)

theorem dotA_zero_apply (l : FVec Ideal S1024x1024 φ₁) (r : FVec Ideal S1024x128 φ₂) (p : Fin 1024) (q : Fin 128) :
    matmul dot_S1024x1024_S1024x128_S1024x128_1_0_0_1_n_n none l r (constant S1024x128 .f32 0x00000000#32) (ix2 p q)
      = ∑ k : Fin 1024, l (ix2 p k) * r (ix2 k q) :=
  matmul_zero_apply1 _ 1024 rfl rfl l r _ (ix2 p) (ix2 · q)
    (fun k => Shape.idx_ext₂ rfl (DotDims.lhsIdx_val_of_single _ rfl _ k)) (fun k => Shape.idx_ext₂ (DotDims.rhsIdx_val_of_single _ rfl _ k) rfl)

theorem dotW_zero_apply (l : FVec Ideal S1024x128 φ₁) (r : FVec Ideal S128x128 φ₂) (p : Fin 1024) (q : Fin 128) :
    matmul dot_S1024x128_S128x128_S1024x128_1_0_0_1_n_n none l r (constant S1024x128 .f32 0x00000000#32) (ix2 p q)
      = ∑ k : Fin 128, l (ix2 p k) * r (ix2 k q) :=
  matmul_zero_apply1 _ 128 rfl rfl l r _ (ix2 p) (ix2 · q)
    (fun k => Shape.idx_ext₂ rfl (DotDims.lhsIdx_val_of_single _ rfl _ k)) (fun k => Shape.idx_ext₂ (DotDims.rhsIdx_val_of_single _ rfl _ k) rfl)

theorem dotV_zero_apply (l : FVec Ideal S1024x128 φ₁) (r : FVec Ideal S128x64 φ₂) (p : Fin 1024) (q : Fin 64) :
    matmul dot_S1024x128_S128x64_S1024x64_1_0_0_1_n_n none l r (constant S1024x64 .f32 0x00000000#32) (ix2 p q)
      = ∑ k : Fin 128, l (ix2 p k) * r (ix2 k q) :=
  matmul_zero_apply1 _ 128 rfl rfl l r _ (ix2 p) (ix2 · q)
    (fun k => Shape.idx_ext₂ rfl (DotDims.lhsIdx_val_of_single _ rfl _ k)) (fun k => Shape.idx_ext₂ (DotDims.rhsIdx_val_of_single _ rfl _ k) rfl)

theorem dotNT_zero_apply (l : FVec Ideal S1024x1024 φ₁) (r : FVec Ideal S1024x1024 φ₂) (p q : Fin 1024) :
    matmul dot_S1024x1024_S1024x1024_S1024x1024_1_1_0_0_n_n none l r (constant S1024x1024 .f32 0x00000000#32) (ix2 p q)
      = ∑ k : Fin 1024, l (ix2 p k) * r (ix2 q k) :=
  matmul_zero_apply1 _ 1024 rfl rfl l r _ (ix2 p) (ix2 q)
    (fun k => Shape.idx_ext₂ rfl (DotDims.lhsIdx_val_of_single _ rfl _ k)) (fun k => Shape.idx_ext₂ rfl (DotDims.rhsIdx_val_of_single _ rfl _ k))

-- A block's element sits in the array, on each axis, at the block's index times its size plus its own coordinate.
theorem emb_blk_eq {G : Pipeline.Grid} (w : Pipeline.Window sig G) (t : Fin G.N) (y : (w.xblock (G.coords t)).Idx)
    (I : w.shape.Idx) (h : ∀ a, (I a).val = w.index t a * w.size a + (y a).val) : (w.rect t).emb y = I :=
  funext fun a => Fin.ext ((w.rect_emb_val t y a).trans (h a).symm)

theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

theorem k0_pay1_apply (p q : Fin 1024) : k0_pay1 (F := Ideal) (ix2 p q) = 0 := by
  unfold k0_pay1
  simp only [shapeCast_self]
  exact Ideal.ofBits_zero_f32

theorem k1_pay1_apply (p : Fin 1024) (q : Fin 128) : k1_pay1 (F := Ideal) (ix2 p q) = 0 := by
  unfold k1_pay1
  simp only [shapeCast_self]
  exact Ideal.ofBits_zero_f32

theorem k2_pay1_apply (p : Fin 1024) (q : Fin 128) : k2_pay1 (F := Ideal) (ix2 p q) = 0 := k1_pay1_apply p q

theorem k3_pay1_apply (p q : Fin 1024) : k3_pay1 (F := Ideal) (ix2 p q) = 0 := k0_pay1_apply p q

theorem k0_pay2_apply (s : Vec Ideal S1024x1024 .f32) (x0 x1 : Vec Ideal S1024x1024 .bf16) (p q : Fin 1024) :
    k0_pay2 s x0 x1 (ix2 p q) = s (ix2 p q) + ∑ k : Fin 1024, x0 (ix2 k p) * x1 (ix2 k q) := by
  unfold k0_pay2
  simp only [shapeCast_self]
  rw [addf_apply, dotTN_zero_apply]

theorem k3_pay2_apply (s : Vec Ideal S1024x1024 .f32) (x0 x1 : Vec Ideal S1024x1024 .bf16) (p q : Fin 1024) :
    k3_pay2 s x0 x1 (ix2 p q) = s (ix2 p q) + ∑ k : Fin 1024, x0 (ix2 p k) * x1 (ix2 q k) := by
  unfold k3_pay2
  simp only [shapeCast_self]
  rw [addf_apply, dotNT_zero_apply]

theorem k1_pay2_apply (v3 : Vec Ideal S1024x1024 .f32) (v6 v8 : Vec Ideal S1024x128 .f32) (p : Fin 1024) (q : Fin 128) :
    k1_pay2 v3 v6 v8 (ix2 p q) = v8 (ix2 p q) + ∑ k : Fin 1024, v3 (ix2 p k) * v6 (ix2 k q) := by
  unfold k1_pay2
  simp only [shapeCast_self]
  rw [addf_apply, dotA_zero_apply]
  rfl

theorem k2_pay2_apply (v3 : Vec Ideal S1024x1024 .f32) (v6 v9 : Vec Ideal S1024x128 .f32) (p : Fin 1024) (q : Fin 128) :
    k2_pay2 v3 v6 v9 (ix2 p q) = v9 (ix2 p q) + ∑ k : Fin 1024, v3 (ix2 p k) * v6 (ix2 k q) := by
  unfold k2_pay2
  simp only [shapeCast_self]
  rw [addf_apply, dotA_zero_apply]
  rfl

theorem sitofp_extui_ogt_zero (x : EReal) :
    (FloatOps.sitofp (F := Ideal) .f32
      ((FloatOps.cmpf (F := Ideal) (φ := .f32) .ogt x (Scalar.ofBits .f32 0x00000000#32)).setWidth 32) : EReal)
      = if 0 < x then 1 else 0 := by
  show ((((Ideal.cmp .ogt x (Ideal.ofBits .f32 0x00000000#32)).setWidth 32).toInt : ℝ) : EReal) = _
  rw [Ideal.ofBits_zero_f32]
  unfold Ideal.cmp
  by_cases h : 0 < x
  · simp [h]
  · simp [h]

theorem k0_pay3_apply (v16 : Vec Ideal S1024x1024 .f32) (p q : Fin 1024) :
    k0_pay3 v16 (ix2 p q) = if 0 < v16 (ix2 p q) then 1 else 0 := by
  unfold k0_pay3
  exact sitofp_extui_ogt_zero (v16 (ix2 p q))

theorem k1_pay3_apply (v17 : Vec Ideal S1024x128 .f32) (v18 : Vec Ideal S1024x1 .f32) (v23 : Vec Ideal S128x128 .f32)
    (v26 : Vec Ideal S1024x128 .f32) (v28 : Vec Ideal S128x128 .f32) (v31 : Vec Ideal S1x128 .f32)
    (p : Fin 1024) (q : Fin 128) :
    k1_pay3 v17 v18 v23 v26 v28 v31 (ix2 p q)
      = max (((∑ k : Fin 128, (v17 (ix2 p k) * v18 (ix2 p (0 : Fin 1))) * v23 (ix2 k q)) + v31 (ix2 (0 : Fin 1) q))
          + ∑ k : Fin 128, v26 (ix2 p k) * v28 (ix2 k q)) 0 := by
  unfold k1_pay3
  simp only [shapeCast_self]
  rw [maximumf_apply, addf_apply, addf_apply, dotW_zero_apply, dotW_zero_apply, broadcastTo_1b_ab_apply]
  refine congrArg₂ max (congrArg₂ (· + ·) (congrArg (· + _) (Finset.sum_congr rfl fun k _ => ?_)) rfl)
    Ideal.ofBits_zero_f32
  rw [truncf_apply, truncf_apply, mulf_apply, broadcastTo_a1_ab_apply]

theorem k2_pay3_apply (v18 : Vec Ideal S1024x128 .f32) (v19 : Vec Ideal S1024x1 .f32) (v24 : Vec Ideal S128x64 .f32)
    (v27 : Vec Ideal S1024x128 .f32) (v30 : Vec Ideal S128x64 .f32) (v33 : Vec Ideal S1x64 .f32)
    (p : Fin 1024) (q : Fin 64) :
    k2_pay3 v18 v19 v24 v27 v30 v33 (ix2 p q)
      = ((∑ k : Fin 128, (v18 (ix2 p k) * v19 (ix2 p (0 : Fin 1))) * v24 (ix2 k q)) + v33 (ix2 (0 : Fin 1) q))
          + ∑ k : Fin 128, v27 (ix2 p k) * v30 (ix2 k q) := by
  unfold k2_pay3
  simp only [shapeCast_self]
  rw [addf_apply, addf_apply, dotV_zero_apply, dotV_zero_apply, broadcastTo_1b_ab_apply]
  refine congrArg₂ (· + ·) (congrArg (· + _) (Finset.sum_congr rfl fun k _ => ?_)) rfl
  rw [truncf_apply, truncf_apply, mulf_apply, broadcastTo_a1_ab_apply]

end Cert.KernelIdeal.PayIdx

end
-- ==== Proof.LibBlockSum.lean ====
import Mathlib.Algebra.BigOperators.Fin
import Mathlib.Logic.Equiv.Fin.Basic

open scoped BigOperators

namespace Cert.LibBlockSum

variable {M : Type*} [AddCommMonoid M]

-- A sum over `nb * B` positions is the sum over `nb` blocks of the sums over each block's `B` positions.
theorem sum_div_mod (nb B : ℕ) (g : Fin nb → Fin B → M) :
    ∑ K : Fin (nb * B), g K.divNat K.modNat = ∑ n : Fin nb, ∑ k : Fin B, g n k :=
  (Equiv.sum_comp finProdFinEquiv.symm (fun p : Fin nb × Fin B => g p.1 p.2)).trans
    (Fintype.sum_prod_type' g)

-- Resetting to block 0's sum and then adding block `j + 1`'s at the run's point `j + 1` leaves the sum over all the blocks' positions.
theorem fold_blocks (e B : ℕ) {N : ℕ} (f : (n : ℕ) → n < N → M) (g : Fin (e + 1) → Fin B → M) (b : ℕ)
    (h0 : ∀ h, f b h = 0 + ∑ k, g 0 k)
    (hs : ∀ (j : ℕ) (hj : j + 1 < e + 1) (h : b + (j + 1) < N),
      f (b + (j + 1)) h = f (b + j) (Nat.lt_of_succ_lt h) + ∑ k, g ⟨j + 1, hj⟩ k)
    (h : b + e < N) : f (b + e) h = ∑ K : Fin ((e + 1) * B), g K.divNat K.modNat := by
  have key : ∀ (j : ℕ) (hj : j < e + 1) (h : b + j < N),
      f (b + j) h = ∑ i : Fin (j + 1), ∑ k, g (Fin.castLE hj i) k := by
    intro j
    induction j with
    | zero => intro hj h; exact (h0 h).trans ((zero_add _).trans (Fin.sum_univ_one fun i => ∑ k, g (Fin.castLE hj i) k).symm)
    | succ j ih =>
      intro hj h
      rw [hs j hj h, ih (Nat.lt_of_succ_lt hj), Fin.sum_univ_castSucc (n := j + 1)]
      rfl
  exact (key e (Nat.lt_succ_self e) h).trans (sum_div_mod (e + 1) B g).symm

end Cert.LibBlockSum
-- ==== Proof.KI.Val0.lean ====
import proofs.«139954_j43997644980465_1_alg».proof.Proof.KI.Reg0
import proofs.«139954_j43997644980465_1_alg».proof.Proof.KI.PayIdx
import proofs.«139954_j43997644980465_1_alg».proof.Proof.LibBlockSum
import Idealize.ShloMosaic.Lib.Pipeline.Value
import Idealize.ShloMosaic.Lib.ValueIdx

set_option maxRecDepth 16384

noncomputable section

open scoped BigOperators

namespace Cert.KernelIdeal.Hand

open Idealize.ShloMosaic Idealize.ShloMosaic.TcCoe Idealize.SL.Sem
open Idealize.ShloMosaic.Pipeline (Dat)
open Idealize.ShloMosaic.ValueIdx
open Cert.KernelIdeal Cert.KernelIdeal.Gen Cert.KernelIdeal.PayIdx Cert.LibBlockSum

theorem idx_facts0 : ∀ (n : ℕ) (h : n < cfg0.N),
    win0_0.index ⟨n, h⟩ (0 : Fin 2) = n % 4 ∧ win0_0.index ⟨n, h⟩ (1 : Fin 2) = n / 16
    ∧ win0_1.index ⟨n, h⟩ (0 : Fin 2) = n % 4 ∧ win0_1.index ⟨n, h⟩ (1 : Fin 2) = n / 4 % 4
    ∧ win0_2.index ⟨n, h⟩ (0 : Fin 2) = n / 16 ∧ win0_2.index ⟨n, h⟩ (1 : Fin 2) = n / 4 % 4 := by
  decide +kernel

section Region
variable (V : (c : Dev nD) → (b : Ref sig .tc) → Buf (Elt Ideal) ((c : Thread nD τ).loc b))

abbrev colDot (a b : Vec Ideal S4096x4096 .bf16) (p q : Fin 4096) : EReal := ∑ k : Fin 4096, a (ix2 k p) * b (ix2 k q)

def G0 (a b : Vec Ideal S4096x4096 .bf16) : Vec Ideal S4096x4096 .f32 := fun i => if 0 < colDot a b (i 0) (i 1) then 1 else 0

-- The four points of a run contract the four blocks of the long axis in turn: together, the whole axis.
theorem scr0_apply (c : Dev nD) (b : ℕ) (hb : b + 3 < cfg0.N) (h0 : b % 4 = 0) (p q : Fin 1024) (P Q : Fin 4096)
    (hP : P.val = (b + 3) / 16 * 1024 + p.val) (hQ : Q.val = (b + 3) / 4 % 4 * 1024 + q.val) :
    scr0 V c (b + 3) hb (ix2 p q) = colDot (V c main_v0) (V c main_v0) P Q := by
  have hN : b + 3 < 64 := lt_of_lt_of_eq hb N_0
  let X : Fin 4 → Vec Ideal S1024x1024 .bf16 := fun j => iblk0 V c 0 ⟨b + j.val, by omega⟩
  let Y : Fin 4 → Vec Ideal S1024x1024 .bf16 := fun j => iblk0 V c 1 ⟨b + j.val, by omega⟩
  refine (fold_blocks 3 1024 (fun n h => scr0 V c n h (ix2 p q)) (fun j k => X j (ix2 k p) * Y j (ix2 k q)) b
    (fun h => ?_) (fun j hj h => ?_) hb).trans (Finset.sum_congr rfl fun K _ => ?_)
  · exact (congrFun (scr0_reset V c ⟨b, h⟩ h0) _).trans
      ((k0_pay2_apply _ _ _ p q).trans (congrArg (· + _) (k0_pay1_apply p q)))
  · exact (congrFun (scr0_step V c ⟨b + (j + 1), h⟩ (by show ¬(b + (j + 1)) % 4 = 0; omega)) _).trans
      (k0_pay2_apply _ _ _ p q)
  · have hK : K.val < 4096 := K.isLt
    have hs : b + K.val / 1024 < cfg0.N := by omega
    obtain ⟨e0, e1, e2, e3, -⟩ := idx_facts0 _ hs
    exact congrArg₂ (· * ·)
      (congrArg (V c main_v0) (emb_blk_eq win0_0 ⟨_, hs⟩ (ix2 (⟨K.val % 1024, by omega⟩ : Fin 1024) p) (ix2 K P) (Fin.forall_fin_two.2
        ⟨by show K.val = _ * 1024 + K.val % 1024; rw [e0]; omega, by show P.val = _ * 1024 + p.val; rw [e1, hP]; omega⟩)))
      (congrArg (V c main_v0) (emb_blk_eq win0_1 ⟨_, hs⟩ (ix2 (⟨K.val % 1024, by omega⟩ : Fin 1024) q) (ix2 K Q) (Fin.forall_fin_two.2
        ⟨by show K.val = _ * 1024 + K.val % 1024; rw [e2]; omega, by show Q.val = _ * 1024 + q.val; rw [e3, hQ]; omega⟩)))

theorem flushed0_eq (c : Dev nD) (t : Fin cfg0.N) (hf : (cfg0.win 2).flush t = true) :
    (dat0 V c).flushed 2 t = ((cfg0.win 2).blk t).view.read (Elt Ideal) (G0 (V c main_v0) (V c main_v0)) := by
  obtain ⟨tv, ht⟩ := t
  have h3 : tv % 4 = 3 := (flush0_2 ⟨tv, ht⟩).mp hf
  obtain ⟨b, rfl⟩ : ∃ b, tv = b + 3 := ⟨tv - 3, by omega⟩
  have hN : b + 3 < 64 := lt_of_lt_of_eq ht N_0
  obtain ⟨-, -, -, -, e4, e5⟩ := idx_facts0 _ ht
  funext j
  obtain ⟨p, q, rfl⟩ : ∃ (p q : Fin 1024), j = ix2 p q := ⟨j 0, j 1, eq_ix2 j⟩
  obtain ⟨P, hP⟩ : ∃ P : Fin 4096, P.val = (b + 3) / 16 * 1024 + p.val := ⟨⟨_, by omega⟩, rfl⟩
  obtain ⟨Q, hQ⟩ : ∃ Q : Fin 4096, Q.val = (b + 3) / 4 % 4 * 1024 + q.val := ⟨⟨_, by omega⟩, rfl⟩
  show (dat0 V c).after 2 ⟨b + 3, ht⟩ (ix2 p q) = G0 _ _ ((win0_2.rect ⟨b + 3, ht⟩).emb (ix2 p q))
  rw [after0_2, emb_blk_eq win0_2 ⟨b + 3, ht⟩ (ix2 p q) (ix2 P Q)
    (Fin.forall_fin_two.2 ⟨by rw [e4]; exact hP, by rw [e5]; exact hQ⟩)]
  exact (k0_pay3_apply _ p q).trans (by rw [scr0_apply V c b ht (by omega) p q P Q hP hQ]; rfl)

theorem cover0 (i : S4096x4096.Idx) :
    ∃ t : Fin cfg0.N, (cfg0.win 2).flush t = true ∧ i ∈ ((cfg0.win 2).blk t).view.set := by
  have h0 : (i 0).val < 4096 := idx2_lt0 i
  have h1 : (i 1).val < 4096 := idx2_lt1 i
  have ht : 16 * ((i 0).val / 1024) + 4 * ((i 1).val / 1024) + 3 < cfg0.N :=
    lt_of_lt_of_eq (by omega : 16 * ((i 0).val / 1024) + 4 * ((i 1).val / 1024) + 3 < 64) N_0.symm
  obtain ⟨-, -, -, -, e4, e5⟩ := idx_facts0 _ ht
  refine ⟨⟨_, ht⟩, (flush0_2 ⟨_, ht⟩).mpr (by show (16 * ((i 0).val / 1024) + 4 * ((i 1).val / 1024) + 3) % 4 = 3; omega), ?_⟩
  have e := emb_blk_eq win0_2 ⟨_, ht⟩ (ix2 (⟨(i 0).val % 1024, by omega⟩ : Fin 1024) (⟨(i 1).val % 1024, by omega⟩ : Fin 1024)) i
    (Fin.forall_fin_two.2 ⟨by rw [e4]; show (i 0).val = _ * 1024 + (i 0).val % 1024; omega,
      by rw [e5]; show (i 1).val = _ * 1024 + (i 1).val % 1024; omega⟩)
  exact (congrArg (· ∈ _) e).mp (((cfg0.win 2).blk ⟨_, ht⟩).view.emb_mem_set _)

theorem final0 (c : Dev nD) (p q : Fin 4096) :
    (dat0 V c).arrAt 2 cfg0.N (ix2 p q) = (if 0 < colDot (V c main_v0) (V c main_v0) p q then 1 else 0 : EReal) :=
  congrFun ((dat0 V c).arrAt_eq_of_cover 2 (G0 (V c main_v0) (V c main_v0)) (flushed0_eq V c) cover0) (ix2 p q)

end Region

end Cert.KernelIdeal.Hand

end
-- ==== Proof.KI.Val1.lean ====
import proofs.«139954_j43997644980465_1_alg».proof.Proof.KI.Reg1
import proofs.«139954_j43997644980465_1_alg».proof.Proof.KI.PayIdx
import proofs.«139954_j43997644980465_1_alg».proof.Proof.LibBlockSum
import Idealize.ShloMosaic.Lib.Pipeline.Value
import Idealize.ShloMosaic.Lib.ValueIdx

set_option maxRecDepth 16384

noncomputable section

open scoped BigOperators

namespace Cert.KernelIdeal.Hand

open Idealize.ShloMosaic Idealize.ShloMosaic.TcCoe Idealize.SL.Sem
open Idealize.ShloMosaic.Pipeline (Dat)
open Idealize.ShloMosaic.ValueIdx
open Cert.KernelIdeal Cert.KernelIdeal.Gen Cert.KernelIdeal.PayIdx Cert.LibBlockSum

section Val
variable (V : (c : Dev nD) → (b : Ref sig .tc) → Buf (Elt Ideal) ((c : Thread nD τ).loc b))

abbrev adj1 (c : Dev nD) : Vec Ideal S4096x4096 .f32 := V c main_v1
abbrev feat1 (c : Dev nD) : Vec Ideal S4096x128 .f32 := V c main_arg1
abbrev invdeg1 (c : Dev nD) : Vec Ideal S4096x1 .f32 := V c main_v7
abbrev wl1 (c : Dev nD) : Vec Ideal SW1 .f32 := V c main_arg2
abbrev bias1 (c : Dev nD) : Vec Ideal SB1 .f32 := V c main_v8
abbrev wr1 (c : Dev nD) : Vec Ideal SW1 .f32 := V c main_arg4

theorem idx1 : ∀ (n : ℕ) (h : n < cfg1.N),
    win1_0.index ⟨n, h⟩ (0 : Fin 2) = n / 4 ∧ win1_0.index ⟨n, h⟩ (1 : Fin 2) = n % 4
    ∧ win1_1.index ⟨n, h⟩ (0 : Fin 2) = n % 4 ∧ win1_1.index ⟨n, h⟩ (1 : Fin 2) = 0
    ∧ win1_2.index ⟨n, h⟩ (0 : Fin 2) = n / 4 ∧ win1_2.index ⟨n, h⟩ (1 : Fin 2) = 0
    ∧ win1_3.index ⟨n, h⟩ (0 : Fin 2) = n / 4 ∧ win1_3.index ⟨n, h⟩ (1 : Fin 2) = 0
    ∧ win1_4.index ⟨n, h⟩ (0 : Fin 2) = 0 ∧ win1_4.index ⟨n, h⟩ (1 : Fin 2) = 0
    ∧ win1_5.index ⟨n, h⟩ (0 : Fin 2) = 0 ∧ win1_5.index ⟨n, h⟩ (1 : Fin 2) = 0
    ∧ win1_6.index ⟨n, h⟩ (0 : Fin 2) = 0 ∧ win1_6.index ⟨n, h⟩ (1 : Fin 2) = 0
    ∧ win1_7.index ⟨n, h⟩ (0 : Fin 2) = n / 4 ∧ win1_7.index ⟨n, h⟩ (1 : Fin 2) = 0 := by
  decide +kernel

def G1 (c : Dev nD) : Vec Ideal S4096x128 .f32 := fun i =>
  max
    (((∑ k' : Fin 128, ((∑ k : Fin 4096, adj1 V c (ix2 (i 0) k) * feat1 V c (ix2 k k')) * invdeg1 V c (ix2 (i 0) (0 : Fin 1)))
        * wl1 V c (ix2 k' (i 1))) + bias1 V c (ix2 (0 : Fin 1) (i 1)))
      + ∑ k' : Fin 128, feat1 V c (ix2 (i 0) k') * wr1 V c (ix2 k' (i 1)))
    0

-- The four points of a run contract the four blocks of the long axis in turn: together, the whole axis.
theorem scr1_apply (c : Dev nD) (b : ℕ) (hb : b + 3 < cfg1.N) (h0 : b % 4 = 0) (p : Fin 1024) (q : Fin 128) (P : Fin 4096)
    (hP : P.val = (b + 3) / 4 * 1024 + p.val) :
    scr1 V c (b + 3) hb (ix2 p q) = ∑ K : Fin 4096, adj1 V c (ix2 P K) * feat1 V c (ix2 K q) := by
  have hN : b + 3 < 16 := lt_of_lt_of_eq hb N_1
  let X : Fin 4 → Vec Ideal S1024x1024 .f32 := fun j => iblk1 V c 0 ⟨b + j.val, by omega⟩
  let Y : Fin 4 → Vec Ideal S1024x128 .f32 := fun j => iblk1 V c 1 ⟨b + j.val, by omega⟩
  refine (fold_blocks 3 1024 (fun n h => scr1 V c n h (ix2 p q)) (fun j k => X j (ix2 p k) * Y j (ix2 k q)) b
    (fun h => ?_) (fun j hj h => ?_) hb).trans (Finset.sum_congr rfl fun K _ => ?_)
  · exact (congrFun (scr1_reset V c ⟨b, h⟩ h0) _).trans
      ((k1_pay2_apply _ _ _ p q).trans (congrArg (· + _) (k1_pay1_apply p q)))
  · exact (congrFun (scr1_step V c ⟨b + (j + 1), h⟩ (by show ¬(b + (j + 1)) % 4 = 0; omega)) _).trans
      (k1_pay2_apply _ _ _ p q)
  · have hK : K.val < 4096 := K.isLt
    have hs : b + K.val / 1024 < cfg1.N := by omega
    obtain ⟨e0, e1, e2, e3, -⟩ := idx1 _ hs
    exact congrArg₂ (· * ·)
      (congrArg (V c main_v1) (emb_blk_eq win1_0 ⟨_, hs⟩ (ix2 p (⟨K.val % 1024, by omega⟩ : Fin 1024)) (ix2 P K) (Fin.forall_fin_two.2
        ⟨by show P.val = _ * 1024 + p.val; rw [e0, hP]; omega, by show K.val = _ * 1024 + K.val % 1024; rw [e1]; omega⟩)))
      (congrArg (V c main_arg1) (emb_blk_eq win1_1 ⟨_, hs⟩ (ix2 (⟨K.val % 1024, by omega⟩ : Fin 1024) q) (ix2 K q) (Fin.forall_fin_two.2
        ⟨by show K.val = _ * 1024 + K.val % 1024; rw [e2]; omega, by rw [e3]; exact (Nat.zero_add _).symm⟩)))

theorem flushed1_eq (c : Dev nD) (t : Fin cfg1.N) (hf : (cfg1.win 7).flush t = true) :
    (dat1 (F := Ideal) V c).flushed 7 t = ((cfg1.win 7).blk t).view.read (Elt Ideal) (G1 V c) := by
  obtain ⟨tv, ht⟩ := t
  have h3 : tv % 4 = 3 := (flush1_7 ⟨tv, ht⟩).mp hf
  obtain ⟨b, rfl⟩ : ∃ b, tv = b + 3 := ⟨tv - 3, by omega⟩
  have hN : b + 3 < 16 := lt_of_lt_of_eq ht N_1
  obtain ⟨-, -, -, -, a0, a1, b0, b1, c0, c1, d0, d1, f0, f1, g0, g1⟩ := idx1 _ ht
  funext j
  obtain ⟨p, q, rfl⟩ : ∃ (p : Fin 1024) (q : Fin 128), j = ix2 p q := ⟨j 0, j 1, eq_ix2 j⟩
  obtain ⟨P, hP⟩ : ∃ P : Fin 4096, P.val = (b + 3) / 4 * 1024 + p.val := ⟨⟨_, by omega⟩, rfl⟩
  show (dat1 (F := Ideal) V c).after 7 ⟨b + 3, ht⟩ (ix2 p q) = G1 V c ((win1_7.rect ⟨b + 3, ht⟩).emb (ix2 p q))
  rw [after1_7, emb_blk_eq win1_7 ⟨b + 3, ht⟩ (ix2 p q) (ix2 P q) (Fin.forall_fin_two.2 ⟨by rw [g0]; exact hP, by rw [g1]; exact (Nat.zero_add _).symm⟩)]
  refine (k1_pay3_apply _ _ _ _ _ _ p q).trans (congrArg₂ max (congrArg₂ (· + ·) (congrArg₂ (· + ·) (Finset.sum_congr rfl fun k' _ => ?_) ?_) (Finset.sum_congr rfl fun k' _ => ?_)) rfl)
  · exact congrArg₂ (· * ·) (congrArg₂ (· * ·) (scr1_apply V c b ht (by omega) p k' P hP)
      (congrArg (V c main_v7) (emb_blk_eq win1_3 _ (ix2 p (0 : Fin 1)) (ix2 P (0 : Fin 1)) (Fin.forall_fin_two.2 ⟨by rw [b0]; exact hP, by rw [b1]; exact (Nat.zero_add _).symm⟩))))
      (congrArg (V c main_arg2) (emb_blk_eq win1_4 _ (ix2 k' q) (ix2 k' q) (Fin.forall_fin_two.2 ⟨by rw [c0]; exact (Nat.zero_add _).symm, by rw [c1]; exact (Nat.zero_add _).symm⟩)))
  · exact congrArg (V c main_v8) (emb_blk_eq win1_5 _ (ix2 (0 : Fin 1) q) (ix2 (0 : Fin 1) q) (Fin.forall_fin_two.2 ⟨by rw [d0]; exact (Nat.zero_add _).symm, by rw [d1]; exact (Nat.zero_add _).symm⟩))
  · exact congrArg₂ (· * ·) (congrArg (V c main_arg1) (emb_blk_eq win1_2 _ (ix2 p k') (ix2 P k') (Fin.forall_fin_two.2 ⟨by rw [a0]; exact hP, by rw [a1]; exact (Nat.zero_add _).symm⟩)))
      (congrArg (V c main_arg4) (emb_blk_eq win1_6 _ (ix2 k' q) (ix2 k' q) (Fin.forall_fin_two.2 ⟨by rw [f0]; exact (Nat.zero_add _).symm, by rw [f1]; exact (Nat.zero_add _).symm⟩)))

theorem cover1 (i : S4096x128.Idx) : ∃ t : Fin cfg1.N, (cfg1.win 7).flush t = true ∧ i ∈ ((cfg1.win 7).blk t).view.set := by
  have h0 : (i 0).val < 4096 := (i 0).isLt
  have ht : 4 * ((i 0).val / 1024) + 3 < cfg1.N := lt_of_lt_of_eq (by omega : 4 * ((i 0).val / 1024) + 3 < 16) N_1.symm
  obtain ⟨-, -, -, -, -, -, -, -, -, -, -, -, -, -, g0, g1⟩ := idx1 _ ht
  refine ⟨⟨_, ht⟩, (flush1_7 ⟨_, ht⟩).mpr (by show (4 * ((i 0).val / 1024) + 3) % 4 = 3; omega), ?_⟩
  have e := emb_blk_eq win1_7 ⟨_, ht⟩ (ix2 (⟨(i 0).val % 1024, by omega⟩ : Fin 1024) (i 1)) i
    (Fin.forall_fin_two.2 ⟨by rw [g0]; show (i 0).val = _ * 1024 + (i 0).val % 1024; omega, by rw [g1]; exact (Nat.zero_add _).symm⟩)
  exact (congrArg (· ∈ _) e).mp (((cfg1.win 7).blk ⟨_, ht⟩).view.emb_mem_set _)

theorem final1 (c : Dev nD) (p : Fin 4096) (qo : Fin 128) :
    (dat1 (F := Ideal) V c).arrAt 7 cfg1.N (ix2 p qo)
      = max
        (((∑ k' : Fin 128, ((∑ k : Fin 4096, adj1 V c (ix2 p k) * feat1 V c (ix2 k k')) * invdeg1 V c (ix2 p (0 : Fin 1)))
            * wl1 V c (ix2 k' qo)) + bias1 V c (ix2 (0 : Fin 1) qo))
          + ∑ k' : Fin 128, feat1 V c (ix2 p k') * wr1 V c (ix2 k' qo))
        0 :=
  congrFun ((dat1 (F := Ideal) V c).arrAt_eq_of_cover 7 (G1 V c) (flushed1_eq V c) cover1) (ix2 p qo)

end Val

end Cert.KernelIdeal.Hand

end
-- ==== Proof.KI.Val2.lean ====
import proofs.«139954_j43997644980465_1_alg».proof.Proof.KI.Reg2
import proofs.«139954_j43997644980465_1_alg».proof.Proof.KI.PayIdx
import proofs.«139954_j43997644980465_1_alg».proof.Proof.LibBlockSum
import Idealize.ShloMosaic.Lib.Pipeline.Value
import Idealize.ShloMosaic.Lib.ValueIdx

set_option maxRecDepth 16384

noncomputable section

open scoped BigOperators

namespace Cert.KernelIdeal.Hand

open Idealize.ShloMosaic Idealize.ShloMosaic.TcCoe Idealize.SL.Sem
open Idealize.ShloMosaic.Pipeline (Dat)
open Idealize.ShloMosaic.ValueIdx
open Cert.KernelIdeal Cert.KernelIdeal.Gen Cert.KernelIdeal.PayIdx Cert.LibBlockSum

section Val
variable (V : (c : Dev nD) → (b : Ref sig .tc) → Buf (Elt Ideal) ((c : Thread nD τ).loc b))

abbrev adj2 (c : Dev nD) : Vec Ideal S4096x4096 .f32 := V c main_v1
abbrev feat2 (c : Dev nD) : Vec Ideal S4096x128 .f32 := V c main_v9
abbrev invdeg2 (c : Dev nD) : Vec Ideal S4096x1 .f32 := V c main_v7
abbrev wl2 (c : Dev nD) : Vec Ideal SW2 .f32 := V c main_arg5
abbrev bias2 (c : Dev nD) : Vec Ideal SB2 .f32 := V c main_v10
abbrev wr2 (c : Dev nD) : Vec Ideal SW2 .f32 := V c main_arg7

theorem idx2 : ∀ (n : ℕ) (h : n < cfg2.N),
    win2_0.index ⟨n, h⟩ (0 : Fin 2) = n / 4 ∧ win2_0.index ⟨n, h⟩ (1 : Fin 2) = n % 4
    ∧ win2_1.index ⟨n, h⟩ (0 : Fin 2) = n % 4 ∧ win2_1.index ⟨n, h⟩ (1 : Fin 2) = 0
    ∧ win2_2.index ⟨n, h⟩ (0 : Fin 2) = n / 4 ∧ win2_2.index ⟨n, h⟩ (1 : Fin 2) = 0
    ∧ win2_3.index ⟨n, h⟩ (0 : Fin 2) = n / 4 ∧ win2_3.index ⟨n, h⟩ (1 : Fin 2) = 0
    ∧ win2_4.index ⟨n, h⟩ (0 : Fin 2) = 0 ∧ win2_4.index ⟨n, h⟩ (1 : Fin 2) = 0
    ∧ win2_5.index ⟨n, h⟩ (0 : Fin 2) = 0 ∧ win2_5.index ⟨n, h⟩ (1 : Fin 2) = 0
    ∧ win2_6.index ⟨n, h⟩ (0 : Fin 2) = 0 ∧ win2_6.index ⟨n, h⟩ (1 : Fin 2) = 0
    ∧ win2_7.index ⟨n, h⟩ (0 : Fin 2) = n / 4 ∧ win2_7.index ⟨n, h⟩ (1 : Fin 2) = 0 := by
  decide +kernel

def G2 (c : Dev nD) : Vec Ideal S4096x64 .f32 := fun i =>
  ((∑ k' : Fin 128, ((∑ k : Fin 4096, adj2 V c (ix2 (i 0) k) * feat2 V c (ix2 k k')) * invdeg2 V c (ix2 (i 0) (0 : Fin 1)))
        * wl2 V c (ix2 k' (i 1))) + bias2 V c (ix2 (0 : Fin 1) (i 1)))
      + ∑ k' : Fin 128, feat2 V c (ix2 (i 0) k') * wr2 V c (ix2 k' (i 1))

-- The four points of a run contract the four blocks of the long axis in turn: together, the whole axis.
theorem scr2_apply (c : Dev nD) (b : ℕ) (hb : b + 3 < cfg2.N) (h0 : b % 4 = 0) (p : Fin 1024) (q : Fin 128) (P : Fin 4096)
    (hP : P.val = (b + 3) / 4 * 1024 + p.val) :
    scr2 V c (b + 3) hb (ix2 p q) = ∑ K : Fin 4096, adj2 V c (ix2 P K) * feat2 V c (ix2 K q) := by
  have hN : b + 3 < 16 := lt_of_lt_of_eq hb N_2
  let X : Fin 4 → Vec Ideal S1024x1024 .f32 := fun j => iblk2 V c 0 ⟨b + j.val, by omega⟩
  let Y : Fin 4 → Vec Ideal S1024x128 .f32 := fun j => iblk2 V c 1 ⟨b + j.val, by omega⟩
  refine (fold_blocks 3 1024 (fun n h => scr2 V c n h (ix2 p q)) (fun j k => X j (ix2 p k) * Y j (ix2 k q)) b
    (fun h => ?_) (fun j hj h => ?_) hb).trans (Finset.sum_congr rfl fun K _ => ?_)
  · exact (congrFun (scr2_reset V c ⟨b, h⟩ h0) _).trans
      ((k2_pay2_apply _ _ _ p q).trans (congrArg (· + _) (k2_pay1_apply p q)))
  · exact (congrFun (scr2_step V c ⟨b + (j + 1), h⟩ (by show ¬(b + (j + 1)) % 4 = 0; omega)) _).trans
      (k2_pay2_apply _ _ _ p q)
  · have hK : K.val < 4096 := K.isLt
    have hs : b + K.val / 1024 < cfg2.N := by omega
    obtain ⟨e0, e1, e2, e3, -⟩ := idx2 _ hs
    exact congrArg₂ (· * ·)
      (congrArg (V c main_v1) (emb_blk_eq win2_0 ⟨_, hs⟩ (ix2 p (⟨K.val % 1024, by omega⟩ : Fin 1024)) (ix2 P K) (Fin.forall_fin_two.2
        ⟨by show P.val = _ * 1024 + p.val; rw [e0, hP]; omega, by show K.val = _ * 1024 + K.val % 1024; rw [e1]; omega⟩)))
      (congrArg (V c main_v9) (emb_blk_eq win2_1 ⟨_, hs⟩ (ix2 (⟨K.val % 1024, by omega⟩ : Fin 1024) q) (ix2 K q) (Fin.forall_fin_two.2
        ⟨by show K.val = _ * 1024 + K.val % 1024; rw [e2]; omega, by rw [e3]; exact (Nat.zero_add _).symm⟩)))

theorem flushed2_eq (c : Dev nD) (t : Fin cfg2.N) (hf : (cfg2.win 7).flush t = true) :
    (dat2 (F := Ideal) V c).flushed 7 t = ((cfg2.win 7).blk t).view.read (Elt Ideal) (G2 V c) := by
  obtain ⟨tv, ht⟩ := t
  have h3 : tv % 4 = 3 := (flush2_7 ⟨tv, ht⟩).mp hf
  obtain ⟨b, rfl⟩ : ∃ b, tv = b + 3 := ⟨tv - 3, by omega⟩
  have hN : b + 3 < 16 := lt_of_lt_of_eq ht N_2
  obtain ⟨-, -, -, -, a0, a1, b0, b1, c0, c1, d0, d1, f0, f1, g0, g1⟩ := idx2 _ ht
  funext j
  obtain ⟨p, q, rfl⟩ : ∃ (p : Fin 1024) (q : Fin 64), j = ix2 p q := ⟨j 0, j 1, eq_ix2 j⟩
  obtain ⟨P, hP⟩ : ∃ P : Fin 4096, P.val = (b + 3) / 4 * 1024 + p.val := ⟨⟨_, by omega⟩, rfl⟩
  show (dat2 (F := Ideal) V c).after 7 ⟨b + 3, ht⟩ (ix2 p q) = G2 V c ((win2_7.rect ⟨b + 3, ht⟩).emb (ix2 p q))
  rw [after2_7, emb_blk_eq win2_7 ⟨b + 3, ht⟩ (ix2 p q) (ix2 P q) (Fin.forall_fin_two.2 ⟨by rw [g0]; exact hP, by rw [g1]; exact (Nat.zero_add _).symm⟩)]
  refine (k2_pay3_apply _ _ _ _ _ _ p q).trans (congrArg₂ (· + ·) (congrArg₂ (· + ·) (Finset.sum_congr rfl fun k' _ => ?_) ?_) (Finset.sum_congr rfl fun k' _ => ?_))
  · exact congrArg₂ (· * ·) (congrArg₂ (· * ·) (scr2_apply V c b ht (by omega) p k' P hP)
      (congrArg (V c main_v7) (emb_blk_eq win2_3 _ (ix2 p (0 : Fin 1)) (ix2 P (0 : Fin 1)) (Fin.forall_fin_two.2 ⟨by rw [b0]; exact hP, by rw [b1]; exact (Nat.zero_add _).symm⟩))))
      (congrArg (V c main_arg5) (emb_blk_eq win2_4 _ (ix2 k' q) (ix2 k' q) (Fin.forall_fin_two.2 ⟨by rw [c0]; exact (Nat.zero_add _).symm, by rw [c1]; exact (Nat.zero_add _).symm⟩)))
  · exact congrArg (V c main_v10) (emb_blk_eq win2_5 _ (ix2 (0 : Fin 1) q) (ix2 (0 : Fin 1) q) (Fin.forall_fin_two.2 ⟨by rw [d0]; exact (Nat.zero_add _).symm, by rw [d1]; exact (Nat.zero_add _).symm⟩))
  · exact congrArg₂ (· * ·) (congrArg (V c main_v9) (emb_blk_eq win2_2 _ (ix2 p k') (ix2 P k') (Fin.forall_fin_two.2 ⟨by rw [a0]; exact hP, by rw [a1]; exact (Nat.zero_add _).symm⟩)))
      (congrArg (V c main_arg7) (emb_blk_eq win2_6 _ (ix2 k' q) (ix2 k' q) (Fin.forall_fin_two.2 ⟨by rw [f0]; exact (Nat.zero_add _).symm, by rw [f1]; exact (Nat.zero_add _).symm⟩)))

theorem cover2 (i : S4096x64.Idx) : ∃ t : Fin cfg2.N, (cfg2.win 7).flush t = true ∧ i ∈ ((cfg2.win 7).blk t).view.set := by
  have h0 : (i 0).val < 4096 := (i 0).isLt
  have ht : 4 * ((i 0).val / 1024) + 3 < cfg2.N := lt_of_lt_of_eq (by omega : 4 * ((i 0).val / 1024) + 3 < 16) N_2.symm
  obtain ⟨-, -, -, -, -, -, -, -, -, -, -, -, -, -, g0, g1⟩ := idx2 _ ht
  refine ⟨⟨_, ht⟩, (flush2_7 ⟨_, ht⟩).mpr (by show (4 * ((i 0).val / 1024) + 3) % 4 = 3; omega), ?_⟩
  have e := emb_blk_eq win2_7 ⟨_, ht⟩ (ix2 (⟨(i 0).val % 1024, by omega⟩ : Fin 1024) (i 1)) i
    (Fin.forall_fin_two.2 ⟨by rw [g0]; show (i 0).val = _ * 1024 + (i 0).val % 1024; omega, by rw [g1]; exact (Nat.zero_add _).symm⟩)
  exact (congrArg (· ∈ _) e).mp (((cfg2.win 7).blk ⟨_, ht⟩).view.emb_mem_set _)

theorem final2 (c : Dev nD) (p : Fin 4096) (qo : Fin 64) :
    (dat2 (F := Ideal) V c).arrAt 7 cfg2.N (ix2 p qo)
      = ((∑ k' : Fin 128, ((∑ k : Fin 4096, adj2 V c (ix2 p k) * feat2 V c (ix2 k k')) * invdeg2 V c (ix2 p (0 : Fin 1)))
            * wl2 V c (ix2 k' qo)) + bias2 V c (ix2 (0 : Fin 1) qo))
          + ∑ k' : Fin 128, feat2 V c (ix2 p k') * wr2 V c (ix2 k' qo) :=
  congrFun ((dat2 (F := Ideal) V c).arrAt_eq_of_cover 7 (G2 V c) (flushed2_eq V c) cover2) (ix2 p qo)

end Val

end Cert.KernelIdeal.Hand

end
-- ==== Proof.KI.Val3.lean ====
import proofs.«139954_j43997644980465_1_alg».proof.Proof.KI.Reg3
import proofs.«139954_j43997644980465_1_alg».proof.Proof.KI.PayIdx
import proofs.«139954_j43997644980465_1_alg».proof.Proof.LibBlockSum
import Idealize.ShloMosaic.Lib.Pipeline.Value
import Idealize.ShloMosaic.Lib.ValueIdx

set_option maxRecDepth 16384

noncomputable section

open scoped BigOperators

namespace Cert.KernelIdeal.Hand

open Idealize.ShloMosaic Idealize.ShloMosaic.TcCoe Idealize.SL.Sem
open Idealize.ShloMosaic.Pipeline (Dat)
open Idealize.ShloMosaic.ValueIdx
open Cert.KernelIdeal Cert.KernelIdeal.Gen Cert.KernelIdeal.PayIdx Cert.LibBlockSum

theorem idx_facts3 : ∀ (n : ℕ) (h : n < cfg3.N),
    win3_0.index ⟨n, h⟩ (0 : Fin 2) = n / 16 ∧ win3_0.index ⟨n, h⟩ (1 : Fin 2) = n % 4
    ∧ win3_1.index ⟨n, h⟩ (0 : Fin 2) = n / 4 % 4 ∧ win3_1.index ⟨n, h⟩ (1 : Fin 2) = n % 4
    ∧ win3_2.index ⟨n, h⟩ (0 : Fin 2) = n / 16 ∧ win3_2.index ⟨n, h⟩ (1 : Fin 2) = n / 4 % 4 := by
  decide +kernel

section Region
variable (V : (c : Dev nD) → (b : Ref sig .tc) → Buf (Elt Ideal) ((c : Thread nD τ).loc b))

abbrev rowDot (a b : Vec Ideal S4096x4096 .bf16) (p q : Fin 4096) : EReal := ∑ k : Fin 4096, a (ix2 p k) * b (ix2 q k)

def G3 (a b : Vec Ideal S4096x4096 .bf16) : Vec Ideal S4096x4096 .f32 := fun i => rowDot a b (i 0) (i 1)

-- The four points of a run contract the four blocks of the long axis in turn: together, the whole axis.
theorem scr3_apply (c : Dev nD) (b : ℕ) (hb : b + 3 < cfg3.N) (h0 : b % 4 = 0) (p q : Fin 1024) (P Q : Fin 4096)
    (hP : P.val = (b + 3) / 16 * 1024 + p.val) (hQ : Q.val = (b + 3) / 4 % 4 * 1024 + q.val) :
    scr3 V c (b + 3) hb (ix2 p q) = rowDot (V c main_v33) (V c main_v0) P Q := by
  have hN : b + 3 < 64 := lt_of_lt_of_eq hb N_3
  let X : Fin 4 → Vec Ideal S1024x1024 .bf16 := fun j => iblk3 V c 0 ⟨b + j.val, by omega⟩
  let Y : Fin 4 → Vec Ideal S1024x1024 .bf16 := fun j => iblk3 V c 1 ⟨b + j.val, by omega⟩
  refine (fold_blocks 3 1024 (fun n h => scr3 V c n h (ix2 p q)) (fun j k => X j (ix2 p k) * Y j (ix2 q k)) b
    (fun h => ?_) (fun j hj h => ?_) hb).trans (Finset.sum_congr rfl fun K _ => ?_)
  · exact (congrFun (scr3_reset V c ⟨b, h⟩ h0) _).trans
      ((k3_pay2_apply _ _ _ p q).trans (congrArg (· + _) (k3_pay1_apply p q)))
  · exact (congrFun (scr3_step V c ⟨b + (j + 1), h⟩ (by show ¬(b + (j + 1)) % 4 = 0; omega)) _).trans
      (k3_pay2_apply _ _ _ p q)
  · have hK : K.val < 4096 := K.isLt
    have hs : b + K.val / 1024 < cfg3.N := by omega
    obtain ⟨e0, e1, e2, e3, -⟩ := idx_facts3 _ hs
    exact congrArg₂ (· * ·)
      (congrArg (V c main_v33) (emb_blk_eq win3_0 ⟨_, hs⟩ (ix2 p (⟨K.val % 1024, by omega⟩ : Fin 1024)) (ix2 P K) (Fin.forall_fin_two.2
        ⟨by show P.val = _ * 1024 + p.val; rw [e0, hP]; omega, by show K.val = _ * 1024 + K.val % 1024; rw [e1]; omega⟩)))
      (congrArg (V c main_v0) (emb_blk_eq win3_1 ⟨_, hs⟩ (ix2 q (⟨K.val % 1024, by omega⟩ : Fin 1024)) (ix2 Q K) (Fin.forall_fin_two.2
        ⟨by show Q.val = _ * 1024 + q.val; rw [e2, hQ]; omega, by show K.val = _ * 1024 + K.val % 1024; rw [e3]; omega⟩)))

theorem flushed3_eq (c : Dev nD) (t : Fin cfg3.N) (hf : (cfg3.win 2).flush t = true) :
    (dat3 V c).flushed 2 t = ((cfg3.win 2).blk t).view.read (Elt Ideal) (G3 (V c main_v33) (V c main_v0)) := by
  obtain ⟨tv, ht⟩ := t
  have h3 : tv % 4 = 3 := (flush3_2 ⟨tv, ht⟩).mp hf
  obtain ⟨b, rfl⟩ : ∃ b, tv = b + 3 := ⟨tv - 3, by omega⟩
  have hN : b + 3 < 64 := lt_of_lt_of_eq ht N_3
  obtain ⟨-, -, -, -, e4, e5⟩ := idx_facts3 _ ht
  funext j
  obtain ⟨p, q, rfl⟩ : ∃ (p q : Fin 1024), j = ix2 p q := ⟨j 0, j 1, eq_ix2 j⟩
  obtain ⟨P, hP⟩ : ∃ P : Fin 4096, P.val = (b + 3) / 16 * 1024 + p.val := ⟨⟨_, by omega⟩, rfl⟩
  obtain ⟨Q, hQ⟩ : ∃ Q : Fin 4096, Q.val = (b + 3) / 4 % 4 * 1024 + q.val := ⟨⟨_, by omega⟩, rfl⟩
  show (dat3 V c).after 2 ⟨b + 3, ht⟩ (ix2 p q) = G3 _ _ ((win3_2.rect ⟨b + 3, ht⟩).emb (ix2 p q))
  rw [after3_2, emb_blk_eq win3_2 ⟨b + 3, ht⟩ (ix2 p q) (ix2 P Q)
    (Fin.forall_fin_two.2 ⟨by rw [e4]; exact hP, by rw [e5]; exact hQ⟩)]
  exact scr3_apply V c b ht (by omega) p q P Q hP hQ

theorem cover3 (i : S4096x4096.Idx) :
    ∃ t : Fin cfg3.N, (cfg3.win 2).flush t = true ∧ i ∈ ((cfg3.win 2).blk t).view.set := by
  have h0 : (i 0).val < 4096 := idx2_lt0 i
  have h1 : (i 1).val < 4096 := idx2_lt1 i
  have ht : 16 * ((i 0).val / 1024) + 4 * ((i 1).val / 1024) + 3 < cfg3.N :=
    lt_of_lt_of_eq (by omega : 16 * ((i 0).val / 1024) + 4 * ((i 1).val / 1024) + 3 < 64) N_3.symm
  obtain ⟨-, -, -, -, e4, e5⟩ := idx_facts3 _ ht
  refine ⟨⟨_, ht⟩, (flush3_2 ⟨_, ht⟩).mpr (by show (16 * ((i 0).val / 1024) + 4 * ((i 1).val / 1024) + 3) % 4 = 3; omega), ?_⟩
  have e := emb_blk_eq win3_2 ⟨_, ht⟩ (ix2 (⟨(i 0).val % 1024, by omega⟩ : Fin 1024) (⟨(i 1).val % 1024, by omega⟩ : Fin 1024)) i
    (Fin.forall_fin_two.2 ⟨by rw [e4]; show (i 0).val = _ * 1024 + (i 0).val % 1024; omega,
      by rw [e5]; show (i 1).val = _ * 1024 + (i 1).val % 1024; omega⟩)
  exact (congrArg (· ∈ _) e).mp (((cfg3.win 2).blk ⟨_, ht⟩).view.emb_mem_set _)

theorem final3 (c : Dev nD) (p q : Fin 4096) :
    (dat3 V c).arrAt 2 cfg3.N (ix2 p q) = rowDot (V c main_v33) (V c main_v0) p q :=
  congrFun ((dat3 V c).arrAt_eq_of_cover 2 (G3 (V c main_v33) (V c main_v0)) (flushed3_eq V c) cover3) (ix2 p q)

end Region

end Cert.KernelIdeal.Hand

end
-- ==== Proof.Bridge.Symm.lean ====
import proofs.«139954_j43997644980465_1_alg».proof.Proof.Ref.ReadP

noncomputable section

open scoped BigOperators

namespace Cert.Bridge.Symm

open Cert.ReferenceIdeal Cert.ReferenceIdeal.ReadP Idealize.ShloMosaic Idealize.ShloMosaic.ValueIdx

theorem eq_ix2_of {n0 n1 : ℕ} (u : (⟨2, ![n0, n1]⟩ : Shape).Idx) (a : Fin n0) (b : Fin n1)
    (h0 : (u 0).val = a.val) (h1 : (u 1).val = b.val) : u = ix2 a b :=
  funext fun d => Fin.ext (by
    match d with
    | ⟨0, _⟩ => exact h0
    | ⟨1, _⟩ => exact h1)

theorem indicator_gt_zero (x : EReal) :
    (FloatOps.uitofp (F := Ideal) .f32
      (FloatOps.cmpf (F := Ideal) (φ := .f32) .ogt x (FloatOps.ofBits .f32 0x00000000#32)) : EReal)
      = if 0 < x then 1 else 0 := by
  show (((Ideal.cmp .ogt x (Ideal.ofBits .f32 0x00000000#32)).toNat : ℝ) : EReal) = _
  rw [Ideal.ofBits_zero_f32]
  unfold Ideal.cmp
  by_cases h : 0 < x
  · simp [h]
  · simp [h]

variable (l : (⟨S4096x4096, .f32⟩ : BufTy).Contents (Elt Ideal))

-- an entry of the 0/1 matrix: whether two columns of `l` have a positive inner product
theorem A_closed (i j : Fin 4096) :
    val_main_v4 (F := Ideal) l (ix2 i j) = if 0 < ∑ k : Fin 4096, l (ix2 k i) * l (ix2 k j) then 1 else 0 := by
  rw [val_main_v4_apply, val_main_v3_apply, val_main_v2_apply, val_main_cst_apply, val_main_v1_apply]
  refine (indicator_gt_zero _).trans (congrArg (if 0 < · then 1 else 0) (Finset.sum_congr rfl fun k _ => ?_))
  rw [val_main_v0_apply, eq_ix2_of (idx_main_v0 (lidx_main_v1 (ix2 i j) k)) k i rfl rfl,
    eq_ix2_of (ridx_main_v1 (ix2 i j) k) k j rfl rfl]

theorem A_symm_idx (x : S4096x4096.Idx) : val_main_v4 (F := Ideal) l x = val_main_v4 (F := Ideal) l (idx_main_v5 x) := by
  obtain ⟨i, j, rfl⟩ : ∃ (i j : Fin 4096), x = ix2 i j := ⟨x 0, x 1, eq_ix2 x⟩
  rw [eq_ix2_of (idx_main_v5 (ix2 i j)) j i rfl rfl, A_closed, A_closed]
  exact congrArg (if 0 < · then 1 else 0) (Finset.sum_congr rfl fun k _ => mul_comm _ _)

theorem A_transpose : val_main_v5 (F := Ideal) l = val_main_v4 (F := Ideal) l :=
  funext fun x => (val_main_v5_apply l x).trans (A_symm_idx l x).symm

end Cert.Bridge.Symm

end
-- ==== Proof.Bridge.RefClosed.lean ====
import proofs.«139954_j43997644980465_1_alg».proof.Proof.Bridge.Symm

noncomputable section

open scoped BigOperators

namespace Cert.Bridge.RefClosed

open Cert.ReferenceIdeal Cert.ReferenceIdeal.ReadP Cert.Bridge.Symm Idealize.ShloMosaic Idealize.ShloMosaic.ValueIdx

theorem eq_ix1_of {n : ℕ} (u : (⟨1, ![n]⟩ : Shape).Idx) (a : Fin n) (h0 : (u 0).val = a.val) : u = ix1 a :=
  funext fun d => Fin.ext (by
    match d with
    | ⟨0, _⟩ => exact h0)

variable (l : (⟨S4096x4096, .f32⟩ : BufTy).Contents (Elt Ideal)) (x : (⟨S4096x128, .f32⟩ : BufTy).Contents (Elt Ideal))
  (Wl : (⟨S128x128, .f32⟩ : BufTy).Contents (Elt Ideal)) (b : (⟨S128, .f32⟩ : BufTy).Contents (Elt Ideal))
  (Wr : (⟨S128x128, .f32⟩ : BufTy).Contents (Elt Ideal)) (W2l : (⟨S128x64, .f32⟩ : BufTy).Contents (Elt Ideal))
  (b2 : (⟨S64, .f32⟩ : BufTy).Contents (Elt Ideal)) (W2r : (⟨S128x64, .f32⟩ : BufTy).Contents (Elt Ideal))
  (x8 : (⟨S64x1, .f32⟩ : BufTy).Contents (Elt Ideal)) (x9 : (⟨S1, .f32⟩ : BufTy).Contents (Elt Ideal)) (p : Fin 4096)

-- the neighbours' mean of the features: the symmetric 0/1 matrix times them, row `p` scaled by its inverse degree
theorem scaled1_apply (c : Fin 128) :
    val_main_v14 (F := Ideal) l x (ix2 p c)
      = (∑ k : Fin 4096, val_main_v4 (F := Ideal) l (ix2 p k) * x (ix2 k c)) * val_main_v10 (F := Ideal) l (ix1 p) := by
  rw [val_main_v14_apply, val_main_v11_apply, A_transpose, val_main_v13_apply, val_main_v12_apply]
  refine congrArg₂ (· * ·) (Finset.sum_congr rfl fun k _ => ?_) (congrArg (val_main_v10 (F := Ideal) l) (eq_ix1_of _ p rfl))
  rw [eq_ix2_of (lidx_main_v11 (ix2 p c) k) p k rfl rfl, eq_ix2_of (ridx_main_v11 (ix2 p c) k) k c rfl rfl]

theorem y1_closed (q : Fin 128) :
    val_main_v21 (F := Ideal) l x Wl b Wr (ix2 p q)
      = max (((∑ k' : Fin 128, ((∑ k : Fin 4096, val_main_v4 (F := Ideal) l (ix2 p k) * x (ix2 k k'))
                  * val_main_v10 (F := Ideal) l (ix1 p)) * Wl (ix2 k' q)) + b (ix1 q))
          + ∑ k' : Fin 128, x (ix2 p k') * Wr (ix2 k' q)) 0 := by
  rw [val_main_v21_apply, val_main_v20_apply, val_main_v18_apply, val_main_call0_v0_apply, val_main_call0_cst_apply,
    val_main_v17_apply, val_main_v16_apply, val_main_v15_apply, val_main_v19_apply]
  refine congrArg₂ max (congrArg₂ (· + ·) (congrArg₂ (· + ·) (Finset.sum_congr rfl fun k' _ => ?_)
    (congrArg b (eq_ix1_of _ q rfl))) (Finset.sum_congr rfl fun k' _ => ?_)) Ideal.ofBits_zero_f32
  · rw [eq_ix2_of (lidx_main_v15 (ix2 p q) k') p k' rfl rfl, eq_ix2_of (ridx_main_v15 (ix2 p q) k') k' q rfl rfl,
      scaled1_apply]
  · rw [eq_ix2_of (lidx_main_v19 (ix2 p q) k') p k' rfl rfl, eq_ix2_of (ridx_main_v19 (ix2 p q) k') k' q rfl rfl]

theorem scaled2_apply (c : Fin 128) :
    val_main_v25 (F := Ideal) l x Wl b Wr (ix2 p c)
      = (∑ k : Fin 4096, val_main_v4 (F := Ideal) l (ix2 p k) * val_main_v21 (F := Ideal) l x Wl b Wr (ix2 k c))
          * val_main_v10 (F := Ideal) l (ix1 p) := by
  rw [val_main_v25_apply, val_main_v22_apply, A_transpose, val_main_v24_apply, val_main_v23_apply]
  refine congrArg₂ (· * ·) (Finset.sum_congr rfl fun k _ => ?_) (congrArg (val_main_v10 (F := Ideal) l) (eq_ix1_of _ p rfl))
  rw [eq_ix2_of (lidx_main_v22 (ix2 p c) k) p k rfl rfl, eq_ix2_of (ridx_main_v22 (ix2 p c) k) k c rfl rfl]

theorem y2_closed (q : Fin 64) :
    val_main_v31 (F := Ideal) l x Wl b Wr W2l b2 W2r (ix2 p q)
      = ((∑ k' : Fin 128, ((∑ k : Fin 4096, val_main_v4 (F := Ideal) l (ix2 p k)
                    * val_main_v21 (F := Ideal) l x Wl b Wr (ix2 k k'))
                  * val_main_v10 (F := Ideal) l (ix1 p)) * W2l (ix2 k' q)) + b2 (ix1 q))
          + ∑ k' : Fin 128, val_main_v21 (F := Ideal) l x Wl b Wr (ix2 p k') * W2r (ix2 k' q) := by
  rw [val_main_v31_apply, val_main_v29_apply, val_main_v28_apply, val_main_v27_apply, val_main_v26_apply, val_main_v30_apply]
  refine congrArg₂ (· + ·) (congrArg₂ (· + ·) (Finset.sum_congr rfl fun k' _ => ?_) (congrArg b2 (eq_ix1_of _ q rfl)))
    (Finset.sum_congr rfl fun k' _ => ?_)
  · rw [eq_ix2_of (lidx_main_v26 (ix2 p q) k') p k' rfl rfl, eq_ix2_of (ridx_main_v26 (ix2 p q) k') k' q rfl rfl,
      scaled2_apply]
  · rw [eq_ix2_of (lidx_main_v30 (ix2 p q) k') p k' rfl rfl, eq_ix2_of (ridx_main_v30 (ix2 p q) k') k' q rfl rfl]

theorem num_closed (q : Fin 4096) :
    val_main_v55 (F := Ideal) l x Wl b Wr W2l b2 W2r x8 x9 (ix2 p q)
      = ∑ k : Fin 4096, val_main_v52 (F := Ideal) l x Wl b Wr W2l b2 W2r x8 x9 (ix2 p k) * l (ix2 q k) := by
  rw [val_main_v55_apply]
  refine Finset.sum_congr rfl fun k _ => ?_
  rw [val_main_v54_apply, eq_ix2_of (lidx_main_v55 (ix2 p q) k) p k rfl rfl,
    eq_ix2_of (idx_main_v54 (ridx_main_v55 (ix2 p q) k)) q k rfl rfl]

end Cert.Bridge.RefClosed

end
-- ==== Proof.Bridge.Tail.lean ====
import proofs.«139954_j43997644980465_1_alg».proof.Proof.KI.HostVals
import proofs.«139954_j43997644980465_1_alg».proof.Proof.Bridge.Symm
import Idealize.ShloMosaic.PureOps.Ideal.Laws

noncomputable section

namespace Cert.Bridge.Tail

open Cert.ReferenceIdeal Cert.ReferenceIdeal.ReadP Cert.KernelIdeal.Hand Idealize.ShloMosaic Idealize.ShloMosaic.ValueIdx

-- The 0/1 matrix is symmetric, so its row sums are the column sums the reference takes.
theorem invdegK_ref (l : (⟨S4096x4096, .f32⟩ : BufTy).Contents (Elt Ideal)) :
    invdegK (val_main_v4 (F := Ideal) l)
      = shapeCast Cert.KernelIdeal.S4096x1 (val_main_v10 (F := Ideal) l) Cert.KernelIdeal.Gen.shapeCasts_S4096_S4096x1 := by
  have h : Host.reduceAdd (val_main_v4 (F := Ideal) l) (constant (F := Ideal) Cert.KernelIdeal.S_ .f32 0x00000000#32)
      Cert.KernelIdeal.Gen.reducesTo_S4096x4096_S4096_d1 (by decide) = val_main_v6 (F := Ideal) l := by
    funext i
    rw [val_main_v6_apply]
    simp only [Host.reduceAdd, Ideal.hostReduceAdd_def]
    rw [Ideal.hostReduceAdd_single Cert.KernelIdeal.Gen.reducesTo_S4096x4096_S4096_d1 (by decide)]
    refine congrArg (_ + ·) (Finset.sum_congr rfl fun k _ => ?_)
    refine (Symm.A_symm_idx l _).trans (congrArg (val_main_v4 (F := Ideal) l) (funext fun a => Fin.ext ?_))
    match a with
    | ⟨0, _⟩ => rfl
    | ⟨1, _⟩ => rfl
  unfold invdegK
  rw [h]
  rfl

end Cert.Bridge.Tail

end
-- ==== Proof.Bridge.Stages.lean ====
import proofs.«139954_j43997644980465_1_alg».proof.Proof.KI.Outs
import proofs.«139954_j43997644980465_1_alg».proof.Proof.KI.HostVals
import proofs.«139954_j43997644980465_1_alg».proof.Proof.KI.Val0
import proofs.«139954_j43997644980465_1_alg».proof.Proof.KI.Val1
import proofs.«139954_j43997644980465_1_alg».proof.Proof.KI.Val2
import proofs.«139954_j43997644980465_1_alg».proof.Proof.KI.Val3
import proofs.«139954_j43997644980465_1_alg».proof.Proof.Bridge.RefClosed
import proofs.«139954_j43997644980465_1_alg».proof.Proof.Bridge.Tail
import Idealize.ShloMosaic.Lib.ValueLayout

noncomputable section

open scoped BigOperators

namespace Cert.Bridge.Stages

open Idealize.ShloMosaic Idealize.ShloMosaic.TcCoe Idealize.ShloMosaic.ValueIdx
open Idealize.SL Idealize.SL.Sem
open Cert.KernelIdeal Cert.KernelIdeal.Gen Cert.KernelIdeal.Hand
open Cert.ReferenceIdeal.ReadP

theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

variable (m : (ℓ : Loc nD τ sig) → Buf (Elt Ideal) ℓ) (c : Dev nD)

-- What each of the four kernel calls leaves is a stage of the reference: the 0/1 matrix, the two layers, the numerator.
theorem S0 : a1K m c = val_main_v4 (F := Ideal) (X0 m c) := by
  funext j
  obtain ⟨p, q, rfl⟩ : ∃ (p q : Fin 4096), j = ix2 p q := ⟨j 0, j 1, eq_ix2 j⟩
  refine (final0 (Ve0 m) c p q).trans ?_
  rw [Symm.A_closed]
  show (if 0 < colDot (V1 m c main_v0) (V1 m c main_v0) p q then (1 : EReal) else 0) = _
  rw [V1_v0]
  rfl

theorem S1 : a9K m c = val_main_v21 (F := Ideal) (X0 m c) (X1 m c) (X2 m c) (X3 m c) (X4 m c) := by
  funext j
  obtain ⟨p, q, rfl⟩ : ∃ (p : Fin 4096) (q : Fin 128), j = ix2 p q := ⟨j 0, j 1, eq_ix2 j⟩
  refine (final1 (Ve1 m (o1K m)) c p q).trans ?_
  have hA : o1K m 2 main_v1 c = val_main_v4 (F := Ideal) (X0 m c) := (mkOuts_v1 ..).trans (S0 m c)
  rw [RefClosed.y1_closed, show adj1 (Ve1 m (o1K m)) c = _ from (V3_v1 ..).trans hA,
    show feat1 (Ve1 m (o1K m)) c = _ from (V3_args ..).1, show wl1 (Ve1 m (o1K m)) c = _ from (V3_args ..).2.1,
    show wr1 (Ve1 m (o1K m)) c = _ from (V3_args ..).2.2,
    show invdeg1 (Ve1 m (o1K m)) c = _ from (V3_v7 ..).trans ((congrArg invdegK hA).trans (Tail.invdegK_ref _)),
    show bias1 (Ve1 m (o1K m)) c = _ from V3_v8 .., shapeCast_a_a1_apply, shapeCast_a_1a_apply]

theorem S2 : a11K m c
    = val_main_v31 (F := Ideal) (X0 m c) (X1 m c) (X2 m c) (X3 m c) (X4 m c) (X5 m c) (X6 m c) (X7 m c) := by
  funext j
  obtain ⟨p, q, rfl⟩ : ∃ (p : Fin 4096) (q : Fin 64), j = ix2 p q := ⟨j 0, j 1, eq_ix2 j⟩
  refine (final2 (Ve2 m (o2K m)) c p q).trans ?_
  have hA : o2K m 2 main_v1 c = val_main_v4 (F := Ideal) (X0 m c) := (mkOuts_v1 ..).trans (S0 m c)
  rw [RefClosed.y2_closed, show adj2 (Ve2 m (o2K m)) c = _ from (V5_v1 ..).trans hA,
    show feat2 (Ve2 m (o2K m)) c = _ from (V5_v9 ..).trans ((mkOuts_v9 ..).trans (S1 m c)),
    show wl2 (Ve2 m (o2K m)) c = _ from (V5_args ..).1, show wr2 (Ve2 m (o2K m)) c = _ from (V5_args ..).2,
    show invdeg2 (Ve2 m (o2K m)) c = _ from (V5_v7 ..).trans ((congrArg invdegK hA).trans (Tail.invdegK_ref _)),
    show bias2 (Ve2 m (o2K m)) c = _ from V5_v10 .., shapeCast_a_a1_apply, shapeCast_a_1a_apply]

theorem S3 : a35K m c
    = val_main_v55 (F := Ideal) (X0 m c) (X1 m c) (X2 m c) (X3 m c) (X4 m c) (X5 m c) (X6 m c) (X7 m c) (X8 m c) (X9 m c) := by
  funext j
  obtain ⟨p, q, rfl⟩ : ∃ (p q : Fin 4096), j = ix2 p q := ⟨j 0, j 1, eq_ix2 j⟩
  refine (final3 (Ve3 m (o3K m)) c p q).trans ?_
  rw [RefClosed.num_closed]
  show rowDot (V9 m (o3K m) c main_v33) (V9 m (o3K m) c main_v0) p q = _
  rw [(V9_out m (o3K m) c ((mkOuts_v11 ..).trans (S2 m c))).1, V9_v0]
  rfl

end Cert.Bridge.Stages

end
-- ==== Proof.Bridge.Algebraic.lean ====
import proofs.«139954_j43997644980465_1_alg».proof.Defs
import proofs.«139954_j43997644980465_1_alg».proof.Proof.Gen.Pre_finite_inputs
import proofs.«139954_j43997644980465_1_alg».proof.Proof.KI.RunOf
import proofs.«139954_j43997644980465_1_alg».proof.Proof.Ref.RunVal
import proofs.«139954_j43997644980465_1_alg».proof.Proof.Bridge.Stages

noncomputable section

namespace Cert.Bridge

open Idealize.ShloMosaic Idealize.ShloMosaic.TcCoe Idealize.SL.Sem Cert.KernelIdeal.Hand

theorem algebraic : Cert.algebraic_KernelIdeal_ReferenceIdeal := by
  intro m ρ m' ρ' _ hagree
  refine ⟨_, (θ_run Cert.KernelIdeal.defs _ _).mono (fun _ h c => ⟨(h c).1.trans
      (V13_v45 m (outsK m) c ((outsK_v11 m c).trans (Stages.S2 m c)) ((outsK_v35 m c).trans (Stages.S3 m c))), (h c).2⟩)
    (run_of_consistent m (outsK m) (consistentK m) ρ), ?_⟩
  refine (θ_run Cert.ReferenceIdeal.defs _ _).mono (fun _ h c => ⟨(h c).1.trans ?_, (h c).2⟩)
    (Cert.ReferenceIdeal.RunP.run_val (F := Ideal) m' ρ')
  obtain ⟨h0, h1, h2, h3, h4, h5, h6, h7, h8, h9⟩ := hagree c
  rw [h0, h1, h2, h3, h4, h5, h6, h7, h8, h9]

end Cert.Bridge

end
-- ==== Proof.lean ====
/-
  The kernel program computes a 0/1 co-occurrence matrix A = [lᵀ l > 0], two graph-convolution layers over A with mean
  aggregation, a tanh gate scaled to [0, 1], and the gram matrix of the gate-weighted labels divided by pairwise row sums,
  in four kernel regions, each a matmul blocked over its last grid axis into an accumulator. The reference does the same
  with whole matmuls, summing A over the other axis and multiplying by A transposed; A is symmetric because the product
  of extended reals commutes. Both kernel programs' frames come from one argument, generic in the float family (the two
  programs are one text); the reference's frame from its run.
-/
import proofs.«139954_j43997644980465_1_alg».proof.Defs
import proofs.«139954_j43997644980465_1_alg».proof.Proof.Gen.Kernel
import proofs.«139954_j43997644980465_1_alg».proof.Proof.Gen.KernelIdeal
import proofs.«139954_j43997644980465_1_alg».proof.Proof.Gen.ReferenceIdeal
import proofs.«139954_j43997644980465_1_alg».proof.Proof.Gen.Pre_finite_inputs
import proofs.«139954_j43997644980465_1_alg».proof.Proof.BitsFrame
import proofs.«139954_j43997644980465_1_alg».proof.Proof.Bridge.Algebraic
import Idealize.ShloMosaic.Adequacy
import Idealize.ShloMosaic.Init

noncomputable section

namespace Cert.Proof

open Idealize.ShloMosaic Idealize.SL.Sem

theorem claim : Cert.Claim := ⟨Cert.Kernel.Gen.facts, Cert.KernelIdeal.Gen.facts, Cert.ReferenceIdeal.Gen.facts, Cert.Pre_finite_inputs.Gen.facts,
  frame_kernel,
  fun m ρ _ => (θ_run Cert.KernelIdeal.defs _ _).mono (fun _ h c => (h c).2)
    (Cert.KernelIdeal.Hand.run_of_consistent m (Cert.KernelIdeal.Hand.outsK m) (Cert.KernelIdeal.Hand.consistentK m) ρ),
  fun m ρ _ => Cert.ReferenceIdeal.RunP.frame m ρ, trivial, Cert.Bridge.algebraic⟩

end Cert.Proof

end
